-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_norm_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 32 := constantI S_ 32 100000#32
  let main_v11 : IVec S512 32 := broadcastInDim S512 ![] bcast_S_S512 main_c_3
  let main_v12 : IVec S512 1 := cmpi .slt main_arg2 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩

abbrev nBuf : Space → Nat
  | .hbm => 83
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S2x512x1, .f32⟩
  | .hbm, ⟨16, _⟩ => ⟨S2x512x1, .f32⟩
  | .hbm, ⟨17, _⟩ => ⟨S2x512x1, .f32⟩
  | .hbm, ⟨18, _⟩ => ⟨S1x512x1, .f32⟩
  | .hbm, ⟨19, _⟩ => ⟨S512x1, .f32⟩
  | .hbm, ⟨20, _⟩ => ⟨S1x512x1, .f32⟩
  | .hbm, ⟨21, _⟩ => ⟨S512x1, .f32⟩
  | .hbm, ⟨22, _⟩ => ⟨S1x512x1, .f32⟩
  | .hbm, ⟨23, _⟩ => ⟨S512x1, .f32⟩
  | .hbm, ⟨24, _⟩ => ⟨S1x512x1, .f32⟩
  | .hbm, ⟨25, _⟩ => ⟨S512x1, .f32⟩
  | .hbm, ⟨26, _⟩ => ⟨S1x512x1, .f32⟩
  | .hbm, ⟨27, _⟩ => ⟨S512x1, .f32⟩
  | .hbm, ⟨28, _⟩ => ⟨S1x512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .i1⟩
  | .hbm, ⟨57, _⟩ => ⟨S_, .f32⟩
  | .hbm, ⟨58, _⟩ => ⟨S512x1, .f32⟩
  | .hbm, ⟨59, _⟩ => ⟨S512x1, .f32⟩
  | .hbm, ⟨60, _⟩ => ⟨S512x1, .f32⟩
  | .hbm, ⟨61, _⟩ => ⟨S_, .f32⟩
  | .hbm, ⟨62, _⟩ => ⟨S512x1, .f32⟩
  | .hbm, ⟨63, _⟩ => ⟨S512x1, .f32⟩
  | .hbm, ⟨64, _⟩ => ⟨S512x1, .f32⟩
  | .hbm, ⟨65, _⟩ => ⟨S512x1, .f32⟩
  | .hbm, ⟨66, _⟩ => ⟨S_, .f32⟩
  | .hbm, ⟨67, _⟩ => ⟨S512x1, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x1, .f32⟩
  | .hbm, ⟨72, _⟩ => ⟨S512x1, .f32⟩
  | .hbm, ⟨73, _⟩ => ⟨S512x1, .f32⟩
  | .hbm, ⟨74, _⟩ => ⟨S512x1, .f32⟩
  | .hbm, ⟨75, _⟩ => ⟨S_, .f32⟩
  | .hbm, ⟨76, _⟩ => ⟨S512x1, .f32⟩
  | .hbm, ⟨77, _⟩ => ⟨S512x1, .f32⟩
  | .hbm, ⟨78, _⟩ => ⟨S512x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S512x512, .bf16⟩
  | .local _ .vmem, ⟨1, _⟩ => ⟨S2000x512, .f32⟩
  | .local _ .vmem, ⟨2, _⟩ => ⟨S2000x512, .f32⟩
  | .local _ .vmem, ⟨3, _⟩ => ⟨S512x1, .i32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v62 : BitVec 1 := Scalar.cmpi .eq arg1 c24_i32
  let v63 : BitVec 32 := Scalar.extui v62
  let c0_i32_29 : BitVec 32 := 0#32
  let v64 : BitVec 1 := Scalar.cmpi .ne v63 c0_i32_29
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2000_d1_w32 : S512x2000.Iotas .tc 32 [1]
  broadcasts_S512x1_S512x2000 : S512x1.Broadcasts S512x2000
  reduces_S512x2000_S512 : S512x2000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  reducesTo_S512x1_S_d0_1 : S512x1.ReducesTo [0, 1] S_
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_v8) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512x100000, .f32⟩
  | .hbm, ⟨29, _⟩ => ⟨S512x100000, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S512x100000, .f32⟩
  | .hbm, ⟨34, _⟩ => ⟨S_, .f32⟩
  | .hbm, ⟨35, _⟩ => ⟨S512x100000, .f32⟩
  | .hbm, ⟨36, _⟩ => ⟨S512x100000, .f32⟩
  | .hbm, ⟨37, _⟩ => ⟨S512x100000, .f32⟩
  | .hbm, ⟨38, _⟩ => ⟨S_, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .i1⟩
  | .hbm, ⟨48, _⟩ => ⟨S_, .f32⟩
  | .hbm, ⟨49, _⟩ => ⟨S512x100000, .f32⟩
  | .hbm, ⟨50, _⟩ => ⟨S512x100000, .f32⟩
  | .hbm, ⟨51, _⟩ => ⟨S512x100000, .f32⟩
  | .hbm, ⟨52, _⟩ => ⟨S512x1, .i32⟩
  | .hbm, ⟨53, _⟩ => ⟨S1x100000, .i32⟩
  | .hbm, ⟨54, _⟩ => ⟨S512x100000, .i32⟩
  | .hbm, ⟨55, _⟩ => ⟨S512x100000, .i32⟩
  | .hbm, ⟨56, _⟩ => ⟨S512x100000, .i1⟩
  | .hbm, ⟨57, _⟩ => ⟨S512x100000, .f32⟩
  | .hbm, ⟨58, _⟩ => ⟨S512x100000, .f32⟩
  | .hbm, ⟨59, _⟩ => ⟨S_, .f32⟩
  | .hbm, ⟨60, _⟩ => ⟨S512x100000, .f32⟩
  | .hbm, ⟨61, _⟩ => ⟨S512x100000, .f32⟩
  | .hbm, ⟨62, _⟩ => ⟨S512x100000, .f32⟩
  | .hbm, ⟨63, _⟩ => ⟨S512x100000, .f32⟩
  | .hbm, ⟨64, _⟩ => ⟨S_, .f32⟩
  | .hbm, ⟨65, _⟩ => ⟨S512x100000, .f32⟩
  | .hbm, ⟨66, _⟩ => ⟨S512x100000, .f32⟩
  | .hbm, ⟨67, _⟩ => ⟨S_, .f32⟩
  | .hbm, ⟨68, _⟩ => ⟨S512, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S512x1, .f32⟩
  | .hbm, ⟨73, _⟩ => ⟨S512x100000, .f32⟩
  | .hbm, ⟨74, _⟩ => ⟨S512x100000, .f32⟩
  | .hbm, ⟨75, _⟩ => ⟨S512x100000, .f32⟩
  | .hbm, ⟨76, _⟩ => ⟨S_, .f32⟩
  | .hbm, ⟨77, _⟩ => ⟨S512, .f32⟩
  | .hbm, ⟨78, _⟩ => ⟨S512x1, .f32⟩
  | .hbm, ⟨79, _⟩ => ⟨S512x1, .f32⟩
  | .hbm, ⟨80, _⟩ => ⟨S512x100000, .f32⟩
  | .hbm, ⟨81, _⟩ => ⟨S512x100000, .f32⟩
  | .hbm, ⟨82, _⟩ => ⟨S512x1, .i32⟩
  | .hbm, ⟨83, _⟩ => ⟨S_, .i32⟩
  | .hbm, ⟨84, _⟩ => ⟨S512x1, .i32⟩
  | .hbm, ⟨85, _⟩ => ⟨S512x1, .i1⟩
  | .hbm, ⟨86, _⟩ => ⟨S_, .i32⟩
  | .hbm, ⟨87, _⟩ => ⟨S512x1, .i32⟩
  | .hbm, ⟨88, _⟩ => ⟨S512x1, .i32⟩
  | .hbm, ⟨89, _⟩ => ⟨S512x1, .i32⟩
  | .hbm, ⟨90, _⟩ => ⟨S512x1x1, .i32⟩
  | .hbm, ⟨91, _⟩ => ⟨S1, .i32⟩
  | .hbm, ⟨92, _⟩ => ⟨S_, .i32⟩
  | .hbm, ⟨93, _⟩ => ⟨S512x1x1, .i32⟩
  | .hbm, ⟨94, _⟩ => ⟨S512x1x1, .i1⟩
  | .hbm, ⟨95, _⟩ => ⟨S1x1x1, .i32⟩
  | .hbm, ⟨96, _⟩ => ⟨S512x1x1, .i32⟩
  | .hbm, ⟨97, _⟩ => ⟨S512x1x1, .i1⟩
  | .hbm, ⟨98, _⟩ => ⟨S512x1x1, .i1⟩
  | .hbm, ⟨99, _⟩ => ⟨S_, .i1⟩
  | .hbm, ⟨100, _⟩ => ⟨S512x1, .i1⟩
  | .hbm, ⟨101, _⟩ => ⟨S512x1, .f32⟩
  | .hbm, ⟨102, _⟩ => ⟨S_, .f32⟩
  | .hbm, ⟨103, _⟩ => ⟨S512x1, .f32⟩
  | .hbm, ⟨104, _⟩ => ⟨S512x1, .f32⟩
  | .hbm, ⟨105, _⟩ => ⟨S512, .f32⟩
  | .hbm, ⟨106, _⟩ => ⟨S512, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v41 : Ref sig .tc := ⟨.hbm, 81, rfl⟩
abbrev main_v42 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_c_1 : Ref sig .tc := ⟨.hbm, 91, rfl⟩
abbrev main_call4_c_2 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_3 : Ref sig .tc := ⟨.hbm, 99, rfl⟩
abbrev main_call4_v12 : Ref sig .tc := ⟨.hbm, 100, rfl⟩
abbrev main_call4_v13 : Ref sig .tc := ⟨.hbm, 101, rfl⟩
abbrev main_call4_cst : Ref sig .tc := ⟨.hbm, 102, rfl⟩
abbrev main_call4_v14 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_12 : Ref sig .tc := ⟨.hbm, 107, rfl⟩
abbrev main_v46 : Ref sig .tc := ⟨.hbm, 108, rfl⟩
abbrev main_cst_13 : Ref sig .tc := ⟨.hbm, 109, rfl⟩
abbrev main_v47 : Ref sig .tc := ⟨.hbm, 110, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S512x100000_S512x100000_1_0_0_1_n_n_wf : DotDims.WF S512x512 S512x100000 S512x100000 [1] [0] [0] [1] [] []
  gather_S512x100000_S512x1x1_S512x1_n_1_0_0_1_2_11_wf : GatherDims.WF S512x100000 S512x1x1 S512x1 [] [1] [0] [1] [0] 2 ![1, 1]

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.BConds.lean ====
import proofs.«402655_j76381698392241_2_alg».proof.Proof.Gen.Kernel.Launch
import proofs.«402655_j76381698392241_2_alg».proof.Proof.Gen.Kernel.Skeleton
import proofs.«402655_j76381698392241_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's first conditional holds at the first tile of a half, its second at the last: positions 0 and 24 modulo 25. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

end Cert.Kernel.Hand

end
-- ==== Proof.BFrameKit.lean ====
import proofs.«402655_j76381698392241_2_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2].map StableHlo.seq)) := by
  have h := Pipeline.hmain_around (Ix := Unit) (Name := ℕ) (U := UR sig nD τ) (Lvl := ℕ) cfgs 0 defs₀ 𝒱₀ m (main (F := F))
    [hostOps0] [hostOps1, hostOps1_1, hostOps1_2] hostOps0_sub hostOps0_fresh main_chain
  exact h

abbrev preW : List (Ref sig .tc) := [main_v0, main_cst, main_v1, main_v2, main_v3, main_cst_0, main_v4, main_v5, main_v6, main_v7, main_v8, main_v9]

abbrev sfxW : List (Ref sig .tc) := [main_v11, main_v12, main_v13, main_v14, main_v15, main_v16, main_v17, main_v18, main_v19, main_v20, main_v21, main_v22, main_v23, main_v24, main_v25, main_v26, main_v27, main_v28, main_v29, main_v30, main_v31, main_v32, main_cst_1, main_v33, main_v34, main_cst_2, main_v35, main_v36, main_v37, main_cst_3, main_v38, main_v39, main_cst_4, main_v40, main_v41, main_v42, main_cst_5, main_v43, main_v44, main_cst_6, main_v45, main_v46, main_v47, main_cst_7, main_v48, main_v49, main_v50, main_v51, main_cst_8, main_v52, main_v53, main_v54, main_v55, main_v56, main_v57, main_v58, main_v59, main_cst_9, main_v60, main_v61, main_v62, main_cst_10, main_v63, main_cst_11, main_v64]

theorem hostOps0_writes : (hostOps0 : List (HloOp τ sig (Elt F))).Forall fun op => op.writes ⊆ (preW.map (Proc.devRef (τ := τ) .tc)).toFinset := by
  simp only [List.Forall]
  repeat' apply And.intro
  all_goals exact Finset.singleton_subset_iff.mpr (List.mem_toFinset.mpr (List.mem_map_of_mem (by decide)))

theorem sfx_writes : ∀ ops ∈ ([hostOps1, hostOps1_1, hostOps1_2] : List (List (HloOp τ sig (Elt F)))),
    ops.Forall fun op => op.writes ⊆ (sfxW.map (Proc.devRef (τ := τ) .tc)).toFinset := by
  intro ops hops
  simp only [List.mem_cons, List.mem_nil_iff, or_false] at hops
  rcases hops with rfl | rfl | rfl <;>
  · simp only [List.Forall]
    repeat' apply And.intro
    all_goals exact Finset.singleton_subset_iff.mpr (List.mem_toFinset.mpr (List.mem_map_of_mem (by decide)))

theorem sfx_not_written {r : Ref sig .tc} (hr : r ∉ sfxW) : ∀ ops ∈ ([hostOps1, hostOps1_1, hostOps1_2] : List (List (HloOp τ sig (Elt F)))), ∀ op ∈ ops,
    Proc.devRef (τ := τ) .tc r ∉ op.writes := by
  intro ops hops op hop hb
  obtain ⟨y, hy, he⟩ := List.mem_map.mp (List.mem_toFinset.mp ((List.forall_iff_forall_mem.mp (sfx_writes ops hops)) op hop hb))
  exact hr (Proc.devRef_injective _ he ▸ hy)

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => sfx_not_written ((by decide : ∀ w : Fin 6, Pipeline.arrRef spec0 w ∉ sfxW) w) ops hops op hop

theorem V_of_not_written (c : Dev nD) {r : Ref sig .tc} (hr : r ∉ preW) : V m c r = m ((c : Thread nD τ).loc r) :=
  StableHlo.after_of_writes_sub (W := preW) hostOps0 (fun b => m (c, b)) hostOps0_writes hr

theorem V_main_arg1 (c : Dev nD) : V m c main_arg1 = m ((c : Thread nD τ).loc main_arg1) := V_of_not_written m c (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem W_of_not_written (dats : (p : Fin 1) → (c : Dev nD) → Dat τ (Elt F) Unit ℕ (UR sig nD τ) ℕ (cfgs p) c) (c : Dev nD)
    {r : Ref sig .tc} (h0 : r ∉ preW) (h1 : r ∉ sfxW) (ha : ∀ w, Pipeline.arrRef spec0 w ≠ r) :
    Pipeline.afterTail₀ cfgs dats 0 (V0 m) [hostOps1, hostOps1_1, hostOps1_2] c r = m (((c.tc : Thread nD τ).loc r)) := by
  unfold Pipeline.afterTail₀
  rw [StableHlo.after_of_forall_not_mem (b := Proc.devRef .tc r) _ _ (fun op hop => by
        obtain ⟨ops, hops, hop'⟩ := List.mem_flatten.mp hop
        exact sfx_not_written h1 ops hops op hop'),
    Pipeline.withArrays_of_ne _ c (V0 m c) _ r ha]
  exact V_of_not_written m c h0

theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans
      (W_of_not_written m dats c (by decide) (by decide) (by decide)),
    ((h c).1 1).trans (((dats 0 c).arrAt_in 1 rfl _).trans ((hA c 1).trans (V_main_arg1 m c))),
    ((h c).2 main_arg2 (Pipeline.mem_restRefs_of main_arg2 (by decide) (by decide))).trans
      (W_of_not_written m dats c (by decide) (by decide) (by decide))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_of_post m dats hA r h c) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0 : ∀ (w : Fin cfg0.W), 3 ≤ w.val → ∀ t : Fin cfg0.N, ¬cond0_1 (grid0.coords t) →
    cfg0.idle w (grid0.coords t) = true ∧ (cfg0.win w).flush t = false := by decide +kernel
theorem liveAt0 : ∀ (w : Fin cfg0.W) (t : Fin cfg0.N), cond0_1 (grid0.coords t) → cfg0.idle w (grid0.coords t) = false := by decide +kernel

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VO0_3 : View sig .tc .vmem S1x512x1 .f32 := (Memref.whole cc0_stg3_0 : Memref sig .tc .vmem S1x512x1 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.BRunA.lean ====
import proofs.«402655_j76381698392241_2_alg».proof.Proof.BConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- First tile of a half: the three running-state buffers are reset and then updated; the lists are the pieces the stores leave, last first. -/
noncomputable def kernelRun0_A (hc0 : cond0_0 i) (hc1 : ¬cond0_1 i)
    (x0 : Vec F S512x512 .bf16) (x1 : Vec F S2000x512 .f32) (x2 : Vec F S512x1 .i32) :
    Σ' (L3 L4 L5 : List (View.Piece (Elt F) S1x512x1 .f32)) (LS0 LS1 : List (View.Piece (Elt F) S512x1 .f32)), { LS2 : List (View.Piece (Elt F) S512x1 .f32) //
      ∀ (xi3 xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                 ∗ owns (c : Thread nD τ) arg5 fullShare xi3 ∗ owns (c : Thread nD τ) arg6 fullShare xi4 ∗ owns (c : Thread nD τ) arg7 fullShare xi5
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BRunB.lean ====
import proofs.«402655_j76381698392241_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- Inner tile of a half: the running-state buffers enter at the contents the point before left and are updated. -/
noncomputable def kernelRun0_B (hc0 : ¬cond0_0 i) (hc1 : ¬cond0_1 i)
    (x0 : Vec F S512x512 .bf16) (x1 : Vec F S2000x512 .f32) (x2 : Vec F S512x1 .i32) (xs0 xs1 xs2 : Vec F S512x1 .f32) :
    Σ' (L3 L4 L5 : List (View.Piece (Elt F) S1x512x1 .f32)) (LS0 LS1 : List (View.Piece (Elt F) S512x1 .f32)), { LS2 : List (View.Piece (Elt F) S512x1 .f32) //
      ∀ (xi3 xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                 ∗ owns (c : Thread nD τ) arg5 fullShare xi3 ∗ owns (c : Thread nD τ) arg6 fullShare xi4 ∗ owns (c : Thread nD τ) arg7 fullShare xi5
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BRunC.lean ====
import proofs.«402655_j76381698392241_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- Last tile of a half: as an inner tile, and the updated running state is also stored into the three output windows. -/
noncomputable def kernelRun0_C (hc0 : ¬cond0_0 i) (hc1 : cond0_1 i)
    (x0 : Vec F S512x512 .bf16) (x1 : Vec F S2000x512 .f32) (x2 : Vec F S512x1 .i32) (xs0 xs1 xs2 : Vec F S512x1 .f32) :
    Σ' (L3 L4 L5 : List (View.Piece (Elt F) S1x512x1 .f32)) (LS0 LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                 ∗ (∃ f, arg5.view.loc (c : Thread nD τ) ↦[arg5.view.set]{fullShare} arg5.view.writes (Elt F) f L3)
                 ∗ (∃ f, arg6.view.loc (c : Thread nD τ) ↦[arg6.view.set]{fullShare} arg6.view.writes (Elt F) f L4)
                 ∗ (∃ f, arg7.view.loc (c : Thread nD τ) ↦[arg7.view.set]{fullShare} arg7.view.writes (Elt F) f L5)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Hand

end
-- ==== Proof.BPieces.lean ====
import proofs.«402655_j76381698392241_2_alg».proof.Proof.BRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half. Every store writes a whole buffer, so whatever a running-state buffer held it reads back as its last store: the tile's update of the initial values. -/
theorem found_A (hc0 : cond0_0 i) (hc1 : ¬cond0_1 i) (x0 : Vec F S512x512 .bf16) (x1 : Vec F S2000x512 .f32) (x2 : Vec F S512x1 .i32) :
    (∀ f, arg8.view.read (Elt F) (arg8.view.writes (Elt F) f (kernelRun0_A c i arg2 harg2 arg3 harg3 arg4 harg4 arg5 harg5 arg6 harg6 arg7 harg7 arg8 harg8 arg9 harg9 arg10 harg10 hc0 hc1 x0 x1 x2).2.2.2.1) = k0_pay3 (k0_pay13 x1 x0 (k0_pay7 (F := F))))
    ∧ (∀ f, arg9.view.read (Elt F) (arg9.view.writes (Elt F) f (kernelRun0_A c i arg2 harg2 arg3 harg3 arg4 harg4 arg5 harg5 arg6 harg6 arg7 harg7 arg8 harg8 arg9 harg9 arg10 harg10 hc0 hc1 x0 x1 x2).2.2.2.2.1) = k0_pay1 (k0_pay12 x1 x0) (k0_pay13 x1 x0 (k0_pay7 (F := F))) (k0_pay7 (F := F)) (k0_pay8 (F := F)))
    ∧ (∀ f, arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1 x2).2.2.2.2.2.1) = k0_pay2 (k0_pay10 x1 x0) (k0_pay11 i x2) (k0_pay9 (F := F))) := by
  refine ⟨fun f => ?_, fun f => ?_, fun f => ?_⟩ <;>
  · refine (View.read_writes_eq_canon _ _ _ (View.cover_of_tiledL _ S512x1.size (by sl_kernel_rfl))).trans ?_
    unfold kernelRun0_A; dsimp only; sl_unfold_words; dsimp only
    rw [View.canon_cons_unit_zero (S := S512x1) hz2]
    simp only [View.readAt_eq_ld, harg2.read_unread, harg3.read_unread, harg4.read_unread, View.ld_unit_zero (S := S512x512) hz2, View.ld_unit_zero (S := S2000x512) hz2, View.ld_unit_zero (S := S512x1) hz2, View.readCov_unit_zero (S := S512x1) _ hz2]

/-- Inner tile: the update of the contents the point before left. -/
theorem found_B (hc0 : ¬cond0_0 i) (hc1 : ¬cond0_1 i) (x0 : Vec F S512x512 .bf16) (x1 : Vec F S2000x512 .f32) (x2 : Vec F S512x1 .i32) (xs0 xs1 xs2 : Vec F S512x1 .f32) :
    (∀ f, arg8.view.read (Elt F) (arg8.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.1) = k0_pay3 (k0_pay13 x1 x0 xs0))
    ∧ (∀ f, arg9.view.read (Elt F) (arg9.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay12 x1 x0) (k0_pay13 x1 x0 xs0) xs0 xs1)
    ∧ (∀ f, arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay10 x1 x0) (k0_pay11 i x2) xs2) := by
  refine ⟨fun f => ?_, fun f => ?_, fun f => ?_⟩ <;>
  · refine (View.read_writes_eq_canon _ _ _ (View.cover_of_tiledL _ S512x1.size (by sl_kernel_rfl))).trans ?_
    unfold kernelRun0_B; dsimp only; sl_unfold_words
    rw [View.canon_unit_zero hz2]
    simp only [View.readAt_eq_ld, harg2.read_unread, harg3.read_unread, harg4.read_unread, harg8.read_unread, harg9.read_unread, harg10.read_unread, View.ld_unit_zero (S := S512x512) hz2, View.ld_unit_zero (S := S2000x512) hz2, View.ld_unit_zero (S := S512x1) hz2, View.readCov_unit_zero (S := S512x1) _ hz2]

/-- Last tile: as an inner tile, and each output window receives the updated running value, reshaped. -/
theorem found_C (hc0 : ¬cond0_0 i) (hc1 : cond0_1 i) (x0 : Vec F S512x512 .bf16) (x1 : Vec F S2000x512 .f32) (x2 : Vec F S512x1 .i32) (xs0 xs1 xs2 : Vec F S512x1 .f32) :
    (∀ f, arg5.view.read (Elt F) (arg5.view.writes (Elt F) f (kernelRun0_C c i arg2 harg2 arg3 harg3 arg4 harg4 arg5 harg5 arg6 harg6 arg7 harg7 arg8 harg8 arg9 harg9 arg10 harg10 hc0 hc1 x0 x1 x2 xs0 xs1 xs2).1) = k0_pay4 (k0_pay3 (k0_pay13 x1 x0 xs0)))
    ∧ (∀ f, arg6.view.read (Elt F) (arg6.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.1) = k0_pay5 (k0_pay1 (k0_pay12 x1 x0) (k0_pay13 x1 x0 xs0) xs0 xs1))
    ∧ (∀ f, arg7.view.read (Elt F) (arg7.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.1) = k0_pay6 (k0_pay2 (k0_pay10 x1 x0) (k0_pay11 i x2) xs2))
    ∧ (∀ f, arg8.view.read (Elt F) (arg8.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.1) = k0_pay3 (k0_pay13 x1 x0 xs0))
    ∧ (∀ f, arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay12 x1 x0) (k0_pay13 x1 x0 xs0) xs0 xs1)
    ∧ (∀ f, arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay10 x1 x0) (k0_pay11 i x2) xs2) := by
  refine ⟨fun f => ?_, fun f => ?_, fun f => ?_, fun f => ?_, fun f => ?_, fun f => ?_⟩ <;>
  · refine (View.read_writes_eq_canon _ _ _ (by first
      | exact View.cover_of_tiledL _ S512x1.size (by sl_kernel_rfl)
      | exact View.cover_of_tiledL _ S1x512x1.size (by sl_kernel_rfl))).trans ?_
    unfold kernelRun0_C; dsimp only; sl_unfold_words; dsimp only
    first | rw [View.canon_unit_zero hz2] | rw [View.canon_unit_zero hz3]
    simp only [View.readAt_eq_ld, harg2.read_unread, harg3.read_unread, harg4.read_unread, harg8.read_unread, harg9.read_unread, harg10.read_unread, View.ld_unit_zero (S := S512x512) hz2, View.ld_unit_zero (S := S2000x512) hz2, View.ld_unit_zero (S := S512x1) hz2, View.readCov_unit_zero (S := S512x1) _ hz2]

end Cert.Kernel.Hand

end
-- ==== Proof.BFrame.lean ====
import proofs.«402655_j76381698392241_2_alg».proof.Proof.BFrameKit
import proofs.«402655_j76381698392241_2_alg».proof.Proof.BPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at a point, at their literal shapes: the normalised embeddings, the point's tile of 2000 class rows, the labels. -/
abbrev eblk (c : Dev nD) (t : Fin cfg0.N) : Vec F S512x512 .bf16 := iblk m c 0 t
abbrev wblk (c : Dev nD) (t : Fin cfg0.N) : Vec F S2000x512 .f32 := iblk m c 1 t
abbrev lblk (c : Dev nD) (t : Fin cfg0.N) : Vec F S512x1 .i32 := iblk m c 2 t

/-- One tile's update of the running maximum, sum and label cosine `p`. -/
def stepS (c : Dev nD) (t : Fin cfg0.N) (p : Vec F S512x1 .f32 × Vec F S512x1 .f32 × Vec F S512x1 .f32) : Vec F S512x1 .f32 × Vec F S512x1 .f32 × Vec F S512x1 .f32 :=
  (k0_pay3 (k0_pay13 (wblk m c t) (eblk m c t) p.1),
   k0_pay1 (k0_pay12 (wblk m c t) (eblk m c t)) (k0_pay13 (wblk m c t) (eblk m c t) p.1) p.1 p.2.1,
   k0_pay2 (k0_pay10 (wblk m c t) (eblk m c t)) (k0_pay11 (grid0.coords t) (lblk m c t)) p.2.2)

/-- The running state a half starts from. -/
def initS : Vec F S512x1 .f32 × Vec F S512x1 .f32 × Vec F S512x1 .f32 := (k0_pay7, k0_pay8, k0_pay9)

/-- What an output window is said to hold where the kernel does not store into it; nothing reads it there. -/
abbrev idleOut : Vec F S1x512x1 .f32 := VO0_3.read (Elt F) VO0_3.junk

/-- The three output windows and the running state after point `t`, the state having been `p` before it: the outputs receive the new state, reshaped, at the last tile of a half only. -/
def atS (c : Dev nD) (t : Fin cfg0.N) (p : Vec F S512x1 .f32 × Vec F S512x1 .f32 × Vec F S512x1 .f32) : Vec F S1x512x1 .f32 × Vec F S1x512x1 .f32 × Vec F S1x512x1 .f32 × Vec F S512x1 .f32 × Vec F S512x1 .f32 × Vec F S512x1 .f32 :=
  (if t.val % 25 = 24 then k0_pay4 (stepS m c t p).1 else idleOut,
   if t.val % 25 = 24 then k0_pay5 (stepS m c t p).2.1 else idleOut,
   if t.val % 25 = 24 then k0_pay6 (stepS m c t p).2.2 else idleOut,
   stepS m c t p)

/-- The same after position `n`: a half's first tile starts from the initial state, every other tile from what the point before left. -/
def outsAt0 (c : Dev nD) : (n : ℕ) → n < cfg0.N → Vec F S1x512x1 .f32 × Vec F S1x512x1 .f32 × Vec F S1x512x1 .f32 × Vec F S512x1 .f32 × Vec F S512x1 .f32 × Vec F S512x1 .f32
  | 0, hn => atS m c ⟨0, hn⟩ initS
  | n + 1, hn => atS m c ⟨n + 1, hn⟩ (if (n + 1) % 25 = 0 then initS else (outsAt0 c n (Nat.lt_of_succ_lt hn)).2.2.2)

theorem outsAt0_first (c : Dev nD) (t : Fin cfg0.N) (h0 : t.val % 25 = 0) : outsAt0 m c t.val t.isLt = atS m c t initS := by
  obtain ⟨n, hn⟩ := t
  cases n with
  | zero => rfl
  | succ n => exact congrArg (atS m c ⟨n + 1, hn⟩) (if_pos h0)

theorem prev_lt (t : Fin cfg0.N) : t.val - 1 < cfg0.N := Nat.lt_of_le_of_lt (Nat.sub_le _ _) t.isLt

theorem outsAt0_next (c : Dev nD) (t : Fin cfg0.N) (h0 : ¬t.val % 25 = 0) :
    outsAt0 m c t.val t.isLt = atS m c t (outsAt0 m c (t.val - 1) (prev_lt t)).2.2.2 := by
  obtain ⟨n, hn⟩ := t
  cases n with
  | zero => exact absurd (Nat.zero_mod _) h0
  | succ n => exact congrArg (atS m c ⟨n + 1, hn⟩) (if_neg h0)

theorem scr_step_first (c : Dev nD) (t : Fin cfg0.N) (h0 : t.val % 25 = 0) : (outsAt0 m c t.val t.isLt).2.2.2 = stepS m c t initS := by
  rw [outsAt0_first m c t h0]; rfl

theorem scr_step_next (c : Dev nD) (t : Fin cfg0.N) (h0 : ¬t.val % 25 = 0) : (outsAt0 m c t.val t.isLt).2.2.2 = stepS m c t (outsAt0 m c (t.val - 1) (prev_lt t)).2.2.2 := by
  rw [outsAt0_next m c t h0]; rfl

theorem out_last (c : Dev nD) (t : Fin cfg0.N) (h1 : t.val % 25 = 24) :
    ((outsAt0 m c t.val t.isLt).1, (outsAt0 m c t.val t.isLt).2.1, (outsAt0 m c t.val t.isLt).2.2.1)
      = (k0_pay4 ((outsAt0 m c t.val t.isLt).2.2.2.1), k0_pay5 ((outsAt0 m c t.val t.isLt).2.2.2.2.1), k0_pay6 ((outsAt0 m c t.val t.isLt).2.2.2.2.2)) := by
  rw [outsAt0_next m c t (by omega)]; unfold atS; simp only [if_pos h1]

/-- The region invariant before position `n`: at first the three running-state buffers hold anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-- At every position the invariant owns the three running-state buffers at some contents. -/
theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  cases n with
  | zero => rw [PhiS_zero m c 0 h rfl, PhiA0_eq]; try exact Idealize.SL.BI.Entails.refl _
  | succ n =>
    rw [PhiS_succ]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The region's proof data on core `c`: the arrays on entry, and after point `t` the inputs' blocks and `outsAt0`'s outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the position in its half selects the control case; that case's run takes the running-state buffers from the invariant and returns them at this point's state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 25 = 0
  · have hc0 : cond0_0 (grid0.coords t) := (hcond0_0 t).mpr h0
    have hc1 : ¬cond0_1 (grid0.coords t) := fun h => absurd ((hcond0_1 t).mp h) (by omega)
    obtain ⟨e0, e1, e2⟩ := found_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t)
    rw [Dat.leavesExact_idle (dats m 0 c) 3 t (idleAt0 3 (by decide) t hc1).1 (idleAt0 3 (by decide) t hc1).2]
    rw [Dat.leavesExact_idle (dats m 0 c) 4 t (idleAt0 4 (by decide) t hc1).1 (idleAt0 4 (by decide) t hc1).2]
    rw [Dat.leavesExact_idle (dats m 0 c) 5 t (idleAt0 5 (by decide) t hc1).1 (idleAt0 5 (by decide) t hc1).2]
    rw [outsAt0_first m c t h0]
    iintro ⟨HI, Ho, ⟨%d0, H0⟩, ⟨%d1, H1⟩, ⟨%d2, H2⟩, ⟨%d3, H3⟩, ⟨%d4, H4⟩, ⟨%d5, H5⟩⟩
    ihave ⟨⟨HS0, HS1, HS2⟩, Hg⟩ := (PhiS_any m c t.val (Nat.le_of_lt t.isLt)) $$ HI
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t)).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%f0, HS0⟩, ⟨%f1, HS1⟩, ⟨%f2, HS2⟩⟩
    isplitl [HS0 HS1 HS2 Hg]
    · isplitl [HS0 HS1 HS2]
      · isplitl [HS0]
        · unfold owns; iexists _; isplitr
          swap; · iexact HS0
          ipureintro; exact e0 f0
        isplitl [HS1]
        · unfold owns; iexists _; isplitr
          swap; · iexact HS1
          ipureintro; exact e1 f1
        unfold owns; iexists _; isplitr
        swap; · iexact HS2
        ipureintro; exact e2 f2
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · have hc0 : ¬cond0_0 (grid0.coords t) := fun h => h0 ((hcond0_0 t).mp h)
    rw [PhiS_pos m c _ _ (fun h => h0 (by rw [h])), outsAt0_next m c t h0]
    by_cases h1 : t.val % 25 = 24
    · have hc1 : cond0_1 (grid0.coords t) := (hcond0_1 t).mpr h1
      obtain ⟨e3, e4, e5, e0, e1, e2⟩ := found_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) (outsAt0 m c (t.val - 1) (prev_lt t)).2.2.2.1 (outsAt0 m c (t.val - 1) (prev_lt t)).2.2.2.2.1 (outsAt0 m c (t.val - 1) (prev_lt t)).2.2.2.2.2
      rw [show (dats m 0 c).leavesExact 3 t = owns (c : Thread nD τ) (ms0_3 t) fullShare ((dats m 0 c).after 3 t) from by
        unfold Dat.leavesExact; rw [liveAt0 3 t hc1], after0_3, outsAt0_next m c t h0]
      rw [show (dats m 0 c).leavesExact 4 t = owns (c : Thread nD τ) (ms0_4 t) fullShare ((dats m 0 c).after 4 t) from by
        unfold Dat.leavesExact; rw [liveAt0 4 t hc1], after0_4, outsAt0_next m c t h0]
      rw [show (dats m 0 c).leavesExact 5 t = owns (c : Thread nD τ) (ms0_5 t) fullShare ((dats m 0 c).after 5 t) from by
        unfold Dat.leavesExact; rw [liveAt0 5 t hc1], after0_5, outsAt0_next m c t h0]
      unfold atS; simp only [if_pos h1]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%f3, H3⟩, ⟨%f4, H4⟩, ⟨%f5, H5⟩, ⟨%f0, HS0⟩, ⟨%f1, HS1⟩, ⟨%f2, HS2⟩⟩
      isplitl [HS0 HS1 HS2 Hg]
      · isplitl [HS0 HS1 HS2]
        · isplitl [HS0]
          · unfold owns; iexists _; isplitr
            swap; · iexact HS0
            ipureintro; exact e0 f0
          isplitl [HS1]
          · unfold owns; iexists _; isplitr
            swap; · iexact HS1
            ipureintro; exact e1 f1
          unfold owns; iexists _; isplitr
          swap; · iexact HS2
          ipureintro; exact e2 f2
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact e3 f3
      isplitl [H4]
      · unfold owns; iexists _; isplitr
        swap; · iexact H4
        ipureintro; exact e4 f4
      unfold owns; iexists _; isplitr
      swap; · iexact H5
      ipureintro; exact e5 f5
    · have hc1 : ¬cond0_1 (grid0.coords t) := fun h => h1 ((hcond0_1 t).mp h)
      obtain ⟨e0, e1, e2⟩ := found_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) (outsAt0 m c (t.val - 1) (prev_lt t)).2.2.2.1 (outsAt0 m c (t.val - 1) (prev_lt t)).2.2.2.2.1 (outsAt0 m c (t.val - 1) (prev_lt t)).2.2.2.2.2
      rw [Dat.leavesExact_idle (dats m 0 c) 3 t (idleAt0 3 (by decide) t hc1).1 (idleAt0 3 (by decide) t hc1).2]
      rw [Dat.leavesExact_idle (dats m 0 c) 4 t (idleAt0 4 (by decide) t hc1).1 (idleAt0 4 (by decide) t hc1).2]
      rw [Dat.leavesExact_idle (dats m 0 c) 5 t (idleAt0 5 (by decide) t hc1).1 (idleAt0 5 (by decide) t hc1).2]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%f0, HS0⟩, ⟨%f1, HS1⟩, ⟨%f2, HS2⟩⟩
      isplitl [HS0 HS1 HS2 Hg]
      · isplitl [HS0 HS1 HS2]
        · isplitl [HS0]
          · unfold owns; iexists _; isplitr
            swap; · iexact HS0
            ipureintro; exact e0 f0
          isplitl [HS1]
          · unfold owns; iexists _; isplitr
            swap; · iexact HS1
            ipureintro; exact e1 f1
          unfold owns; iexists _; isplitr
          swap; · iexact HS2
          ipureintro; exact e2 f2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA0_eq]; exact PhiS_any m c (Fin.last cfg0.N).val (Nat.le_of_lt_succ (Fin.last cfg0.N).isLt)

set_option backward.isDefEq.respectTransparency.types false in
/-- Every weakly fair execution of @main terminates, with every array of the pipeline at what the proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: @main runs to the end and its three argument arrays end as they started, for any scalar model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KConds.lean ====
import proofs.«402655_j76381698392241_2_alg».proof.Proof.Gen.KernelIdeal.Launch
import proofs.«402655_j76381698392241_2_alg».proof.Proof.Gen.KernelIdeal.Skeleton
import proofs.«402655_j76381698392241_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The body's first conditional holds at the first tile of a half, its second at the last: positions 0 and 24 modulo 25. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

end Cert.KernelIdeal.Hand

end
-- ==== Proof.KFrameKit.lean ====
import proofs.«402655_j76381698392241_2_alg».proof.Proof.KConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2].map StableHlo.seq)) := by
  have h := Pipeline.hmain_around (Ix := Unit) (Name := ℕ) (U := UR sig nD τ) (Lvl := ℕ) cfgs 0 defs₀ 𝒱₀ m (main (F := F))
    [hostOps0] [hostOps1, hostOps1_1, hostOps1_2] hostOps0_sub hostOps0_fresh main_chain
  exact h

abbrev preW : List (Ref sig .tc) := [main_v0, main_cst, main_v1, main_v2, main_v3, main_cst_0, main_v4, main_v5, main_v6, main_v7, main_v8, main_v9]

abbrev sfxW : List (Ref sig .tc) := [main_v11, main_v12, main_v13, main_v14, main_v15, main_v16, main_v17, main_v18, main_v19, main_v20, main_v21, main_v22, main_v23, main_v24, main_v25, main_v26, main_v27, main_v28, main_v29, main_v30, main_v31, main_v32, main_cst_1, main_v33, main_v34, main_cst_2, main_v35, main_v36, main_v37, main_cst_3, main_v38, main_v39, main_cst_4, main_v40, main_v41, main_v42, main_cst_5, main_v43, main_v44, main_cst_6, main_v45, main_v46, main_v47, main_cst_7, main_v48, main_v49, main_v50, main_v51, main_cst_8, main_v52, main_v53, main_v54, main_v55, main_v56, main_v57, main_v58, main_v59, main_cst_9, main_v60, main_v61, main_v62, main_cst_10, main_v63, main_cst_11, main_v64]

theorem hostOps0_writes : (hostOps0 : List (HloOp τ sig (Elt F))).Forall fun op => op.writes ⊆ (preW.map (Proc.devRef (τ := τ) .tc)).toFinset := by
  simp only [List.Forall]
  repeat' apply And.intro
  all_goals exact Finset.singleton_subset_iff.mpr (List.mem_toFinset.mpr (List.mem_map_of_mem (by decide)))

theorem sfx_writes : ∀ ops ∈ ([hostOps1, hostOps1_1, hostOps1_2] : List (List (HloOp τ sig (Elt F)))),
    ops.Forall fun op => op.writes ⊆ (sfxW.map (Proc.devRef (τ := τ) .tc)).toFinset := by
  intro ops hops
  simp only [List.mem_cons, List.mem_nil_iff, or_false] at hops
  rcases hops with rfl | rfl | rfl <;>
  · simp only [List.Forall]
    repeat' apply And.intro
    all_goals exact Finset.singleton_subset_iff.mpr (List.mem_toFinset.mpr (List.mem_map_of_mem (by decide)))

theorem sfx_not_written {r : Ref sig .tc} (hr : r ∉ sfxW) : ∀ ops ∈ ([hostOps1, hostOps1_1, hostOps1_2] : List (List (HloOp τ sig (Elt F)))), ∀ op ∈ ops,
    Proc.devRef (τ := τ) .tc r ∉ op.writes := by
  intro ops hops op hop hb
  obtain ⟨y, hy, he⟩ := List.mem_map.mp (List.mem_toFinset.mp ((List.forall_iff_forall_mem.mp (sfx_writes ops hops)) op hop hb))
  exact hr (Proc.devRef_injective _ he ▸ hy)

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => sfx_not_written ((by decide : ∀ w : Fin 6, Pipeline.arrRef spec0 w ∉ sfxW) w) ops hops op hop

theorem V_of_not_written (c : Dev nD) {r : Ref sig .tc} (hr : r ∉ preW) : V m c r = m ((c : Thread nD τ).loc r) :=
  StableHlo.after_of_writes_sub (W := preW) hostOps0 (fun b => m (c, b)) hostOps0_writes hr

theorem V_main_arg1 (c : Dev nD) : V m c main_arg1 = m ((c : Thread nD τ).loc main_arg1) := V_of_not_written m c (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem W_of_not_written (dats : (p : Fin 1) → (c : Dev nD) → Dat τ (Elt F) Unit ℕ (UR sig nD τ) ℕ (cfgs p) c) (c : Dev nD)
    {r : Ref sig .tc} (h0 : r ∉ preW) (h1 : r ∉ sfxW) (ha : ∀ w, Pipeline.arrRef spec0 w ≠ r) :
    Pipeline.afterTail₀ cfgs dats 0 (V0 m) [hostOps1, hostOps1_1, hostOps1_2] c r = m (((c.tc : Thread nD τ).loc r)) := by
  unfold Pipeline.afterTail₀
  rw [StableHlo.after_of_forall_not_mem (b := Proc.devRef .tc r) _ _ (fun op hop => by
        obtain ⟨ops, hops, hop'⟩ := List.mem_flatten.mp hop
        exact sfx_not_written h1 ops hops op hop'),
    Pipeline.withArrays_of_ne _ c (V0 m c) _ r ha]
  exact V_of_not_written m c h0

theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans
      (W_of_not_written m dats c (by decide) (by decide) (by decide)),
    ((h c).1 1).trans (((dats 0 c).arrAt_in 1 rfl _).trans ((hA c 1).trans (V_main_arg1 m c))),
    ((h c).2 main_arg2 (Pipeline.mem_restRefs_of main_arg2 (by decide) (by decide))).trans
      (W_of_not_written m dats c (by decide) (by decide) (by decide))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_of_post m dats hA r h c) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0 : ∀ (w : Fin cfg0.W), 3 ≤ w.val → ∀ t : Fin cfg0.N, ¬cond0_1 (grid0.coords t) →
    cfg0.idle w (grid0.coords t) = true ∧ (cfg0.win w).flush t = false := by decide +kernel
theorem liveAt0 : ∀ (w : Fin cfg0.W) (t : Fin cfg0.N), cond0_1 (grid0.coords t) → cfg0.idle w (grid0.coords t) = false := by decide +kernel

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VO0_3 : View sig .tc .vmem S1x512x1 .f32 := (Memref.whole cc0_stg3_0 : Memref sig .tc .vmem S1x512x1 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KRunA.lean ====
import proofs.«402655_j76381698392241_2_alg».proof.Proof.KConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- First tile of a half: the three running-state buffers are reset and then updated; the lists are the pieces the stores leave, last first. -/
noncomputable def kernelRun0_A (hc0 : cond0_0 i) (hc1 : ¬cond0_1 i)
    (x0 : Vec F S512x512 .bf16) (x1 : Vec F S2000x512 .f32) (x2 : Vec F S512x1 .i32) :
    Σ' (L3 L4 L5 : List (View.Piece (Elt F) S1x512x1 .f32)) (LS0 LS1 : List (View.Piece (Elt F) S512x1 .f32)), { LS2 : List (View.Piece (Elt F) S512x1 .f32) //
      ∀ (xi3 xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                 ∗ owns (c : Thread nD τ) arg5 fullShare xi3 ∗ owns (c : Thread nD τ) arg6 fullShare xi4 ∗ owns (c : Thread nD τ) arg7 fullShare xi5
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KRunB.lean ====
import proofs.«402655_j76381698392241_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- Inner tile of a half: the running-state buffers enter at the contents the point before left and are updated. -/
noncomputable def kernelRun0_B (hc0 : ¬cond0_0 i) (hc1 : ¬cond0_1 i)
    (x0 : Vec F S512x512 .bf16) (x1 : Vec F S2000x512 .f32) (x2 : Vec F S512x1 .i32) (xs0 xs1 xs2 : Vec F S512x1 .f32) :
    Σ' (L3 L4 L5 : List (View.Piece (Elt F) S1x512x1 .f32)) (LS0 LS1 : List (View.Piece (Elt F) S512x1 .f32)), { LS2 : List (View.Piece (Elt F) S512x1 .f32) //
      ∀ (xi3 xi4 xi5 : Vec F S1x512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                 ∗ owns (c : Thread nD τ) arg5 fullShare xi3 ∗ owns (c : Thread nD τ) arg6 fullShare xi4 ∗ owns (c : Thread nD τ) arg7 fullShare xi5
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KRunC.lean ====
import proofs.«402655_j76381698392241_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

set_option maxHeartbeats 1000000 in
/-- Last tile of a half: as an inner tile, and the updated running state is also stored into the three output windows. -/
noncomputable def kernelRun0_C (hc0 : ¬cond0_0 i) (hc1 : cond0_1 i)
    (x0 : Vec F S512x512 .bf16) (x1 : Vec F S2000x512 .f32) (x2 : Vec F S512x1 .i32) (xs0 xs1 xs2 : Vec F S512x1 .f32) :
    Σ' (L3 L4 L5 : List (View.Piece (Elt F) S1x512x1 .f32)) (LS0 LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                 ∗ (∃ f, arg5.view.loc (c : Thread nD τ) ↦[arg5.view.set]{fullShare} arg5.view.writes (Elt F) f L3)
                 ∗ (∃ f, arg6.view.loc (c : Thread nD τ) ↦[arg6.view.set]{fullShare} arg6.view.writes (Elt F) f L4)
                 ∗ (∃ f, arg7.view.loc (c : Thread nD τ) ↦[arg7.view.set]{fullShare} arg7.view.writes (Elt F) f L5)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__arcface_kernel_eq_skeleton]; unfold cc0__arcface_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.KPieces.lean ====
import proofs.«402655_j76381698392241_2_alg».proof.Proof.KRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The body's nine memory operands: three inputs, three output windows, three running-state buffers, each whole.
variable (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole)
    (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole)
    (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half. Every store writes a whole buffer, so whatever a running-state buffer held it reads back as its last store: the tile's update of the initial values. -/
theorem found_A (hc0 : cond0_0 i) (hc1 : ¬cond0_1 i) (x0 : Vec F S512x512 .bf16) (x1 : Vec F S2000x512 .f32) (x2 : Vec F S512x1 .i32) :
    (∀ f, arg8.view.read (Elt F) (arg8.view.writes (Elt F) f (kernelRun0_A c i arg2 harg2 arg3 harg3 arg4 harg4 arg5 harg5 arg6 harg6 arg7 harg7 arg8 harg8 arg9 harg9 arg10 harg10 hc0 hc1 x0 x1 x2).2.2.2.1) = k0_pay3 (k0_pay13 x1 x0 (k0_pay7 (F := F))))
    ∧ (∀ f, arg9.view.read (Elt F) (arg9.view.writes (Elt F) f (kernelRun0_A c i arg2 harg2 arg3 harg3 arg4 harg4 arg5 harg5 arg6 harg6 arg7 harg7 arg8 harg8 arg9 harg9 arg10 harg10 hc0 hc1 x0 x1 x2).2.2.2.2.1) = k0_pay1 (k0_pay12 x1 x0) (k0_pay13 x1 x0 (k0_pay7 (F := F))) (k0_pay7 (F := F)) (k0_pay8 (F := F)))
    ∧ (∀ f, arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1 x2).2.2.2.2.2.1) = k0_pay2 (k0_pay10 x1 x0) (k0_pay11 i x2) (k0_pay9 (F := F))) := by
  refine ⟨fun f => ?_, fun f => ?_, fun f => ?_⟩ <;>
  · refine (View.read_writes_eq_canon _ _ _ (View.cover_of_tiledL _ S512x1.size (by sl_kernel_rfl))).trans ?_
    unfold kernelRun0_A; dsimp only; sl_unfold_words; dsimp only
    rw [View.canon_cons_unit_zero (S := S512x1) hz2]
    simp only [View.readAt_eq_ld, harg2.read_unread, harg3.read_unread, harg4.read_unread, View.ld_unit_zero (S := S512x512) hz2, View.ld_unit_zero (S := S2000x512) hz2, View.ld_unit_zero (S := S512x1) hz2, View.readCov_unit_zero (S := S512x1) _ hz2]

/-- Inner tile: the update of the contents the point before left. -/
theorem found_B (hc0 : ¬cond0_0 i) (hc1 : ¬cond0_1 i) (x0 : Vec F S512x512 .bf16) (x1 : Vec F S2000x512 .f32) (x2 : Vec F S512x1 .i32) (xs0 xs1 xs2 : Vec F S512x1 .f32) :
    (∀ f, arg8.view.read (Elt F) (arg8.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.1) = k0_pay3 (k0_pay13 x1 x0 xs0))
    ∧ (∀ f, arg9.view.read (Elt F) (arg9.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay12 x1 x0) (k0_pay13 x1 x0 xs0) xs0 xs1)
    ∧ (∀ f, arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay10 x1 x0) (k0_pay11 i x2) xs2) := by
  refine ⟨fun f => ?_, fun f => ?_, fun f => ?_⟩ <;>
  · refine (View.read_writes_eq_canon _ _ _ (View.cover_of_tiledL _ S512x1.size (by sl_kernel_rfl))).trans ?_
    unfold kernelRun0_B; dsimp only; sl_unfold_words
    rw [View.canon_unit_zero hz2]
    simp only [View.readAt_eq_ld, harg2.read_unread, harg3.read_unread, harg4.read_unread, harg8.read_unread, harg9.read_unread, harg10.read_unread, View.ld_unit_zero (S := S512x512) hz2, View.ld_unit_zero (S := S2000x512) hz2, View.ld_unit_zero (S := S512x1) hz2, View.readCov_unit_zero (S := S512x1) _ hz2]

/-- Last tile: as an inner tile, and each output window receives the updated running value, reshaped. -/
theorem found_C (hc0 : ¬cond0_0 i) (hc1 : cond0_1 i) (x0 : Vec F S512x512 .bf16) (x1 : Vec F S2000x512 .f32) (x2 : Vec F S512x1 .i32) (xs0 xs1 xs2 : Vec F S512x1 .f32) :
    (∀ f, arg5.view.read (Elt F) (arg5.view.writes (Elt F) f (kernelRun0_C c i arg2 harg2 arg3 harg3 arg4 harg4 arg5 harg5 arg6 harg6 arg7 harg7 arg8 harg8 arg9 harg9 arg10 harg10 hc0 hc1 x0 x1 x2 xs0 xs1 xs2).1) = k0_pay4 (k0_pay3 (k0_pay13 x1 x0 xs0)))
    ∧ (∀ f, arg6.view.read (Elt F) (arg6.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.1) = k0_pay5 (k0_pay1 (k0_pay12 x1 x0) (k0_pay13 x1 x0 xs0) xs0 xs1))
    ∧ (∀ f, arg7.view.read (Elt F) (arg7.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.1) = k0_pay6 (k0_pay2 (k0_pay10 x1 x0) (k0_pay11 i x2) xs2))
    ∧ (∀ f, arg8.view.read (Elt F) (arg8.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.1) = k0_pay3 (k0_pay13 x1 x0 xs0))
    ∧ (∀ f, arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.1) = k0_pay1 (k0_pay12 x1 x0) (k0_pay13 x1 x0 xs0) xs0 xs1)
    ∧ (∀ f, arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 xs0 xs1 xs2).2.2.2.2.2.1) = k0_pay2 (k0_pay10 x1 x0) (k0_pay11 i x2) xs2) := by
  refine ⟨fun f => ?_, fun f => ?_, fun f => ?_, fun f => ?_, fun f => ?_, fun f => ?_⟩ <;>
  · refine (View.read_writes_eq_canon _ _ _ (by first
      | exact View.cover_of_tiledL _ S512x1.size (by sl_kernel_rfl)
      | exact View.cover_of_tiledL _ S1x512x1.size (by sl_kernel_rfl))).trans ?_
    unfold kernelRun0_C; dsimp only; sl_unfold_words; dsimp only
    first | rw [View.canon_unit_zero hz2] | rw [View.canon_unit_zero hz3]
    simp only [View.readAt_eq_ld, harg2.read_unread, harg3.read_unread, harg4.read_unread, harg8.read_unread, harg9.read_unread, harg10.read_unread, View.ld_unit_zero (S := S512x512) hz2, View.ld_unit_zero (S := S2000x512) hz2, View.ld_unit_zero (S := S512x1) hz2, View.readCov_unit_zero (S := S512x1) _ hz2]

end Cert.KernelIdeal.Hand

end
-- ==== Proof.KFrame.lean ====
import proofs.«402655_j76381698392241_2_alg».proof.Proof.KFrameKit
import proofs.«402655_j76381698392241_2_alg».proof.Proof.KPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks at a point, at their literal shapes: the normalised embeddings, the point's tile of 2000 class rows, the labels. -/
abbrev eblk (c : Dev nD) (t : Fin cfg0.N) : Vec F S512x512 .bf16 := iblk m c 0 t
abbrev wblk (c : Dev nD) (t : Fin cfg0.N) : Vec F S2000x512 .f32 := iblk m c 1 t
abbrev lblk (c : Dev nD) (t : Fin cfg0.N) : Vec F S512x1 .i32 := iblk m c 2 t

/-- One tile's update of the running maximum, sum and label cosine `p`. -/
def stepS (c : Dev nD) (t : Fin cfg0.N) (p : Vec F S512x1 .f32 × Vec F S512x1 .f32 × Vec F S512x1 .f32) : Vec F S512x1 .f32 × Vec F S512x1 .f32 × Vec F S512x1 .f32 :=
  (k0_pay3 (k0_pay13 (wblk m c t) (eblk m c t) p.1),
   k0_pay1 (k0_pay12 (wblk m c t) (eblk m c t)) (k0_pay13 (wblk m c t) (eblk m c t) p.1) p.1 p.2.1,
   k0_pay2 (k0_pay10 (wblk m c t) (eblk m c t)) (k0_pay11 (grid0.coords t) (lblk m c t)) p.2.2)

/-- The running state a half starts from. -/
def initS : Vec F S512x1 .f32 × Vec F S512x1 .f32 × Vec F S512x1 .f32 := (k0_pay7, k0_pay8, k0_pay9)

/-- What an output window is said to hold where the kernel does not store into it; nothing reads it there. -/
abbrev idleOut : Vec F S1x512x1 .f32 := VO0_3.read (Elt F) VO0_3.junk

/-- The three output windows and the running state after point `t`, the state having been `p` before it: the outputs receive the new state, reshaped, at the last tile of a half only. -/
def atS (c : Dev nD) (t : Fin cfg0.N) (p : Vec F S512x1 .f32 × Vec F S512x1 .f32 × Vec F S512x1 .f32) : Vec F S1x512x1 .f32 × Vec F S1x512x1 .f32 × Vec F S1x512x1 .f32 × Vec F S512x1 .f32 × Vec F S512x1 .f32 × Vec F S512x1 .f32 :=
  (if t.val % 25 = 24 then k0_pay4 (stepS m c t p).1 else idleOut,
   if t.val % 25 = 24 then k0_pay5 (stepS m c t p).2.1 else idleOut,
   if t.val % 25 = 24 then k0_pay6 (stepS m c t p).2.2 else idleOut,
   stepS m c t p)

/-- The same after position `n`: a half's first tile starts from the initial state, every other tile from what the point before left. -/
def outsAt0 (c : Dev nD) : (n : ℕ) → n < cfg0.N → Vec F S1x512x1 .f32 × Vec F S1x512x1 .f32 × Vec F S1x512x1 .f32 × Vec F S512x1 .f32 × Vec F S512x1 .f32 × Vec F S512x1 .f32
  | 0, hn => atS m c ⟨0, hn⟩ initS
  | n + 1, hn => atS m c ⟨n + 1, hn⟩ (if (n + 1) % 25 = 0 then initS else (outsAt0 c n (Nat.lt_of_succ_lt hn)).2.2.2)

theorem outsAt0_first (c : Dev nD) (t : Fin cfg0.N) (h0 : t.val % 25 = 0) : outsAt0 m c t.val t.isLt = atS m c t initS := by
  obtain ⟨n, hn⟩ := t
  cases n with
  | zero => rfl
  | succ n => exact congrArg (atS m c ⟨n + 1, hn⟩) (if_pos h0)

theorem prev_lt (t : Fin cfg0.N) : t.val - 1 < cfg0.N := Nat.lt_of_le_of_lt (Nat.sub_le _ _) t.isLt

theorem outsAt0_next (c : Dev nD) (t : Fin cfg0.N) (h0 : ¬t.val % 25 = 0) :
    outsAt0 m c t.val t.isLt = atS m c t (outsAt0 m c (t.val - 1) (prev_lt t)).2.2.2 := by
  obtain ⟨n, hn⟩ := t
  cases n with
  | zero => exact absurd (Nat.zero_mod _) h0
  | succ n => exact congrArg (atS m c ⟨n + 1, hn⟩) (if_neg h0)

theorem scr_step_first (c : Dev nD) (t : Fin cfg0.N) (h0 : t.val % 25 = 0) : (outsAt0 m c t.val t.isLt).2.2.2 = stepS m c t initS := by
  rw [outsAt0_first m c t h0]; rfl

theorem scr_step_next (c : Dev nD) (t : Fin cfg0.N) (h0 : ¬t.val % 25 = 0) : (outsAt0 m c t.val t.isLt).2.2.2 = stepS m c t (outsAt0 m c (t.val - 1) (prev_lt t)).2.2.2 := by
  rw [outsAt0_next m c t h0]; rfl

theorem out_last (c : Dev nD) (t : Fin cfg0.N) (h1 : t.val % 25 = 24) :
    ((outsAt0 m c t.val t.isLt).1, (outsAt0 m c t.val t.isLt).2.1, (outsAt0 m c t.val t.isLt).2.2.1)
      = (k0_pay4 ((outsAt0 m c t.val t.isLt).2.2.2.1), k0_pay5 ((outsAt0 m c t.val t.isLt).2.2.2.2.1), k0_pay6 ((outsAt0 m c t.val t.isLt).2.2.2.2.2)) := by
  rw [outsAt0_next m c t (by omega)]; unfold atS; simp only [if_pos h1]

/-- The region invariant before position `n`: at first the three running-state buffers hold anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-- At every position the invariant owns the three running-state buffers at some contents. -/
theorem PhiS_any (c : Dev nD) (n : ℕ) (h : n ≤ cfg0.N) :
    PhiS m c n h ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  cases n with
  | zero => rw [PhiS_zero m c 0 h rfl, PhiA0_eq]; try exact Idealize.SL.BI.Entails.refl _
  | succ n =>
    rw [PhiS_succ]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The region's proof data on core `c`: the arrays on entry, and after point `t` the inputs' blocks and `outsAt0`'s outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the position in its half selects the control case; that case's run takes the running-state buffers from the invariant and returns them at this point's state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 25 = 0
  · have hc0 : cond0_0 (grid0.coords t) := (hcond0_0 t).mpr h0
    have hc1 : ¬cond0_1 (grid0.coords t) := fun h => absurd ((hcond0_1 t).mp h) (by omega)
    obtain ⟨e0, e1, e2⟩ := found_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t)
    rw [Dat.leavesExact_idle (dats m 0 c) 3 t (idleAt0 3 (by decide) t hc1).1 (idleAt0 3 (by decide) t hc1).2]
    rw [Dat.leavesExact_idle (dats m 0 c) 4 t (idleAt0 4 (by decide) t hc1).1 (idleAt0 4 (by decide) t hc1).2]
    rw [Dat.leavesExact_idle (dats m 0 c) 5 t (idleAt0 5 (by decide) t hc1).1 (idleAt0 5 (by decide) t hc1).2]
    rw [outsAt0_first m c t h0]
    iintro ⟨HI, Ho, ⟨%d0, H0⟩, ⟨%d1, H1⟩, ⟨%d2, H2⟩, ⟨%d3, H3⟩, ⟨%d4, H4⟩, ⟨%d5, H5⟩⟩
    ihave ⟨⟨HS0, HS1, HS2⟩, Hg⟩ := (PhiS_any m c t.val (Nat.le_of_lt t.isLt)) $$ HI
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t)).2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%f0, HS0⟩, ⟨%f1, HS1⟩, ⟨%f2, HS2⟩⟩
    isplitl [HS0 HS1 HS2 Hg]
    · isplitl [HS0 HS1 HS2]
      · isplitl [HS0]
        · unfold owns; iexists _; isplitr
          swap; · iexact HS0
          ipureintro; exact e0 f0
        isplitl [HS1]
        · unfold owns; iexists _; isplitr
          swap; · iexact HS1
          ipureintro; exact e1 f1
        unfold owns; iexists _; isplitr
        swap; · iexact HS2
        ipureintro; exact e2 f2
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · have hc0 : ¬cond0_0 (grid0.coords t) := fun h => h0 ((hcond0_0 t).mp h)
    rw [PhiS_pos m c _ _ (fun h => h0 (by rw [h])), outsAt0_next m c t h0]
    by_cases h1 : t.val % 25 = 24
    · have hc1 : cond0_1 (grid0.coords t) := (hcond0_1 t).mpr h1
      obtain ⟨e3, e4, e5, e0, e1, e2⟩ := found_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) (outsAt0 m c (t.val - 1) (prev_lt t)).2.2.2.1 (outsAt0 m c (t.val - 1) (prev_lt t)).2.2.2.2.1 (outsAt0 m c (t.val - 1) (prev_lt t)).2.2.2.2.2
      rw [show (dats m 0 c).leavesExact 3 t = owns (c : Thread nD τ) (ms0_3 t) fullShare ((dats m 0 c).after 3 t) from by
        unfold Dat.leavesExact; rw [liveAt0 3 t hc1], after0_3, outsAt0_next m c t h0]
      rw [show (dats m 0 c).leavesExact 4 t = owns (c : Thread nD τ) (ms0_4 t) fullShare ((dats m 0 c).after 4 t) from by
        unfold Dat.leavesExact; rw [liveAt0 4 t hc1], after0_4, outsAt0_next m c t h0]
      rw [show (dats m 0 c).leavesExact 5 t = owns (c : Thread nD τ) (ms0_5 t) fullShare ((dats m 0 c).after 5 t) from by
        unfold Dat.leavesExact; rw [liveAt0 5 t hc1], after0_5, outsAt0_next m c t h0]
      unfold atS; simp only [if_pos h1]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%f3, H3⟩, ⟨%f4, H4⟩, ⟨%f5, H5⟩, ⟨%f0, HS0⟩, ⟨%f1, HS1⟩, ⟨%f2, HS2⟩⟩
      isplitl [HS0 HS1 HS2 Hg]
      · isplitl [HS0 HS1 HS2]
        · isplitl [HS0]
          · unfold owns; iexists _; isplitr
            swap; · iexact HS0
            ipureintro; exact e0 f0
          isplitl [HS1]
          · unfold owns; iexists _; isplitr
            swap; · iexact HS1
            ipureintro; exact e1 f1
          unfold owns; iexists _; isplitr
          swap; · iexact HS2
          ipureintro; exact e2 f2
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact e3 f3
      isplitl [H4]
      · unfold owns; iexists _; isplitr
        swap; · iexact H4
        ipureintro; exact e4 f4
      unfold owns; iexists _; isplitr
      swap; · iexact H5
      ipureintro; exact e5 f5
    · have hc1 : ¬cond0_1 (grid0.coords t) := fun h => h1 ((hcond0_1 t).mp h)
      obtain ⟨e0, e1, e2⟩ := found_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) (outsAt0 m c (t.val - 1) (prev_lt t)).2.2.2.1 (outsAt0 m c (t.val - 1) (prev_lt t)).2.2.2.2.1 (outsAt0 m c (t.val - 1) (prev_lt t)).2.2.2.2.2
      rw [Dat.leavesExact_idle (dats m 0 c) 3 t (idleAt0 3 (by decide) t hc1).1 (idleAt0 3 (by decide) t hc1).2]
      rw [Dat.leavesExact_idle (dats m 0 c) 4 t (idleAt0 4 (by decide) t hc1).1 (idleAt0 4 (by decide) t hc1).2]
      rw [Dat.leavesExact_idle (dats m 0 c) 5 t (idleAt0 5 (by decide) t hc1).1 (idleAt0 5 (by decide) t hc1).2]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (eblk m c t) (wblk m c t) (lblk m c t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%f0, HS0⟩, ⟨%f1, HS1⟩, ⟨%f2, HS2⟩⟩
      isplitl [HS0 HS1 HS2 Hg]
      · isplitl [HS0 HS1 HS2]
        · isplitl [HS0]
          · unfold owns; iexists _; isplitr
            swap; · iexact HS0
            ipureintro; exact e0 f0
          isplitl [HS1]
          · unfold owns; iexists _; isplitr
            swap; · iexact HS1
            ipureintro; exact e1 f1
          unfold owns; iexists _; isplitr
          swap; · iexact HS2
          ipureintro; exact e2 f2
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA0_eq]; exact PhiS_any m c (Fin.last cfg0.N).val (Nat.le_of_lt_succ (Fin.last cfg0.N).isLt)

set_option backward.isDefEq.respectTransparency.types false in
/-- Every weakly fair execution of @main terminates, with every array of the pipeline at what the proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: @main runs to the end and its three argument arrays end as they started, for any scalar model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev lit (b : BitVec 32) : EReal := Ideal.ofBits .f32 b

abbrev lo : EReal := lit 0xBF7FFFFE#32
abbrev hi : EReal := lit 0x3F7FFFFE#32

abbrev s64 : EReal := lit 0x42800000#32

abbrev cosm : EReal := lit 0x3F60A940#32
abbrev sinm : EReal := lit 0x3EF57744#32
abbrev thr : EReal := lit 0xBF60A940#32
abbrev mmc : EReal := lit 0x3E757744#32

abbrev one : EReal := lit 0x3F800000#32

abbrev negBig : EReal := lit 0xF149F2CA#32

abbrev eps12 : EReal := lit 0x2B8CBCCC#32

abbrev c512 : EReal := lit 0x44000000#32

abbrev SE : Shape := ⟨2, ![512, 512]⟩
abbrev SW : Shape := ⟨2, ![100000, 512]⟩

def eN (x : SE.Idx → EReal) (b k : Fin 512) : EReal :=
  Ideal.div (x (ix2 b k)) (max (Ideal.sqrt (0 + ∑ k' : Fin 512, x (ix2 b k') * x (ix2 b k'))) eps12)

def wN (w : SW.Idx → EReal) (c : Fin 100000) (k : Fin 512) : EReal :=
  Ideal.div (w (ix2 c k)) (max (Ideal.sqrt (0 + ∑ k' : Fin 512, w (ix2 c k') * w (ix2 c k'))) eps12)

def cosS (x : SE.Idx → EReal) (w : SW.Idx → EReal) (b : Fin 512) (c : Fin 100000) : EReal :=
  min hi (max lo (∑ k : Fin 512, eN x b k * wN w c k))

def phiRef (c : EReal) : EReal :=
  if thr < c then c * cosm - Ideal.sqrt (one - c * c) * sinm else c - mmc

def phiKer (c : EReal) : EReal :=
  if thr < c then c * cosm - Ideal.sqrt (max (one - c * c) 0) * sinm else c - mmc

def rowRef (c : Fin 100000 → EReal) (l : Fin 100000) : EReal :=
  let x : Fin 100000 → EReal := fun j =>
    ((if j = l then (1 : EReal) else 0) * phiRef (c j) + (one - (if j = l then (1 : EReal) else 0)) * c j) * s64
  let M : EReal := max ⊥ ((Finset.univ : Finset (Fin 100000)).fold max ⊥ x)
  let r : EReal := (x l - M) - Ideal.log (0 + ∑ j : Fin 100000, Ideal.exp (x j - M))
  Neg.neg r

def col (T : Fin 50) (j : Fin 2000) : Fin 100000 := ⟨2000 * T.val + j.val, by have := T.isLt; have := j.isLt; omega⟩

def stepK (c : Fin 100000 → EReal) (l : Fin 100000) (T : Fin 50) (s : EReal × EReal × EReal) : EReal × EReal × EReal :=
  let tm : EReal := (Finset.univ : Finset (Fin 2000)).fold max ⊥ (fun j => c (col T j) * s64)
  let m' : EReal := max s.1 tm
  (m', Ideal.exp (s.1 - m') * s.2.1 + ∑ j : Fin 2000, Ideal.exp (c (col T j) * s64 - m'),
    s.2.2 + ∑ j : Fin 2000, (if col T j = l then c (col T j) else 0))

def initK : EReal × EReal × EReal := (negBig, 0, 0)

def tileOf (h : Fin 2) (k : ℕ) : Fin 50 := ⟨(25 * h.val + k) % 50, Nat.mod_lt _ (by norm_num)⟩

def stK (c : Fin 100000 → EReal) (l : Fin 100000) (h : Fin 2) : ℕ → EReal × EReal × EReal
  | 0 => stepK c l (tileOf h 0) initK
  | k + 1 => stepK c l (tileOf h (k + 1)) (stK c l h k)

def tailRow (m0 m1 l0 l1 t0 t1 : EReal) : EReal :=
  let mm : EReal := max m0 m1
  let ls : EReal := l0 * Ideal.exp (m0 - mm) + l1 * Ideal.exp (m1 - mm)
  let ct : EReal := t0 + t1
  let ph : EReal := phiKer ct
  (mm + Ideal.log (ls - Ideal.exp (s64 * ct - mm) + Ideal.exp (s64 * ph - mm))) - s64 * ph

def rowKer (c : Fin 100000 → EReal) (l : Fin 100000) : EReal :=
  tailRow (stK c l 0 24).1 (stK c l 1 24).1 (stK c l 0 24).2.1 (stK c l 1 24).2.1 (stK c l 0 24).2.2 (stK c l 1 24).2.2

def meanRows (r : Fin 512 → EReal) : EReal := Ideal.div (0 + ∑ b : Fin 512, r b) c512

end Cert.Spec

end
-- ==== Proof.KStep.lean ====
import proofs.«402655_j76381698392241_2_alg».proof.Proof.Gen.KernelIdeal.Skeleton
import proofs.«402655_j76381698392241_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx

section AtIdeal
variable {s : Shape} {φ : FTy}

theorem exp_apply (a : FVec Ideal s φ) (i : s.Idx) : exp a i = Ideal.exp (a i) := rfl

theorem rsqrt_apply (a : FVec Ideal s φ) (i : s.Idx) : rsqrt a i = Ideal.rsqrt (a i) := rfl

end AtIdeal

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => rfl
  | ⟨1, _⟩ => rfl

theorem laneSum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) := by
  refine (shapeCast_a_a1_apply _ hc p u).trans ?_
  refine (Ideal.multiReduction_add_single src 0x00000000#32 h hφ hacc (ix1 p)).trans ?_
  exact Finset.sum_congr rfl fun k _ => congrArg src (lift_row h p k)

theorem ofBits_neg_inf : Ideal.ofBits .f32 0xFF800000#32 = ⊥ := by simp [Ideal.ofBits, Ideal.ieee]

theorem laneMax_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction (F := Ideal) .maximumf [1] ⟨1, ![a]⟩ src 0xFF800000#32 h hφ hacc) hc (ix2 p u)
      = (Finset.univ : Finset (Fin b)).fold max ⊥ (fun k => src (ix2 p k)) := by
  refine (shapeCast_a_a1_apply _ hc p u).trans ?_
  refine (Ideal.multiReduction_maximumf_single src 0xFF800000#32 h hφ hacc (ix1 p)).trans ?_
  have e : (src ∘ h.lift (ix1 p)) = fun k : Fin b => src (ix2 p k) := funext fun k => congrArg src (lift_row h p k)
  rw [e]
  exact congrArg (fun z => (Finset.univ : Finset (Fin b)).fold max z (fun k => src (ix2 p k))) ofBits_neg_inf

theorem init_row (b : Fin 512) :
    (k0_pay7 (F := Ideal) (ix2 b 0), k0_pay8 (F := Ideal) (ix2 b 0), k0_pay9 (F := Ideal) (ix2 b 0)) = Cert.Spec.initK := by
  unfold k0_pay7 k0_pay8 k0_pay9 Cert.Spec.initK
  refine Prod.ext rfl (Prod.ext ?_ ?_)
  · exact Ideal.ofBits_zero_f32
  · exact Ideal.ofBits_zero_f32

theorem pay3_id (v : FVec Ideal S512x1 .f32) : k0_pay3 (F := Ideal) v = v := by
  unfold k0_pay3
  exact shapeCast_self _ _

theorem pay4_row (v : Vec Ideal S512x1 .f32) (b : Fin 512) : k0_pay4 (F := Ideal) v (ix3 0 b 0) = v (ix2 b 0) := by
  unfold k0_pay4
  exact shapeCast_ab_1ab_apply _ _ _ _ _

theorem pay5_row (v : Vec Ideal S512x1 .f32) (b : Fin 512) : k0_pay5 (F := Ideal) v (ix3 0 b 0) = v (ix2 b 0) := by
  unfold k0_pay5
  exact shapeCast_ab_1ab_apply _ _ _ _ _

theorem pay6_row (v : Vec Ideal S512x1 .f32) (b : Fin 512) : k0_pay6 (F := Ideal) v (ix3 0 b 0) = v (ix2 b 0) := by
  unfold k0_pay6
  exact shapeCast_ab_1ab_apply _ _ _ _ _

theorem ofNat32_inj {n m : ℕ} (hn : n < 4294967296) (hm : m < 4294967296) :
    BitVec.ofNat 32 n = BitVec.ofNat 32 m ↔ n = m := by
  constructor
  · intro h
    have h' := congrArg BitVec.toNat h
    simp only [BitVec.toNat_ofNat] at h'
    omega
  · rintro rfl; rfl

theorem tile_word (i0 i1 : ℕ) (T : Fin 50) (hT : T.val = 25 * i0 + i1) (j : Fin 2000) :
    IntOp.addi (Scalar.muli (Scalar.addi (Scalar.muli (BitVec.ofNat 32 i0) 25#32) (BitVec.ofNat 32 i1)) 2000#32)
        (BitVec.ofNat 32 j.val) = BitVec.ofNat 32 (Cert.Spec.col T j).val := by
  apply BitVec.eq_of_toNat_eq
  have h1 := T.isLt
  have h2 := j.isLt
  simp only [IntOp.addi, Scalar.muli, Scalar.addi, IntOp.muli, BitVec.toNat_add, BitVec.toNat_mul, BitVec.toNat_ofNat,
    Cert.Spec.col]
  omega

theorem cmpi_eq_one_iff (x y : BitVec 32) : IntOp.cmpi .eq x y = 1#1 ↔ x = y := by
  show BitVec.ofBool (x == y) = 1#1 ↔ x = y
  by_cases h : x = y
  · subst h
    simp
  · have hb : (x == y) = false := by simpa using h
    rw [hb]
    constructor
    · intro h'
      exact absurd h' (by decide)
    · intro h'
      exact absurd h' h

theorem onehot_row (i : grid0.Coords) (T : Fin 50) (hT : T.val = 25 * (i 0).val + (i 1).val)
    (lab : Vec Ideal S512x1 .i32) (L : Fin 512 → Fin 100000) (hL : ∀ b, lab (ix2 b 0) = BitVec.ofNat 32 (L b).val)
    (b : Fin 512) (j : Fin 2000) :
    k0_pay11 (F := Ideal) i lab (ix2 b j) = 1#1 ↔ Cert.Spec.col T j = L b := by
  unfold k0_pay11
  have h1 : iota .tc S512x2000 32 [1] iota_S512x2000_d1_w32 (ix2 b j) = BitVec.ofNat 32 j.val :=
    iota_single_apply _ _ _ _ _ _
  have h2 : broadcastTo S512x2000 (shapeCast S512x1 lab shapeCasts_S512x1_S512x1) broadcasts_S512x1_S512x2000 (ix2 b j)
      = BitVec.ofNat 32 (L b).val :=
    (broadcastTo_a1_ab_apply _ _ b j).trans ((congrFun (shapeCast_self lab _) _).trans (hL b))
  show IntOp.cmpi .eq (IntOp.addi
      (Scalar.muli (Scalar.addi (Scalar.muli (BitVec.ofNat 32 (i 0).val) 25#32) (BitVec.ofNat 32 (i 1).val)) 2000#32)
      (iota .tc S512x2000 32 [1] iota_S512x2000_d1_w32 (ix2 b j)))
    (broadcastTo S512x2000 (shapeCast S512x1 lab shapeCasts_S512x1_S512x1) broadcasts_S512x1_S512x2000 (ix2 b j)) = 1#1 ↔ _
  rw [h1, h2, tile_word (i 0).val (i 1).val T hT j, cmpi_eq_one_iff,
    ofNat32_inj (by have := (Cert.Spec.col T j).isLt; omega) (by have := (L b).isLt; omega)]
  exact Fin.val_inj

theorem pay12_apply (w : Vec Ideal S2000x512 .f32) (e : Vec Ideal S512x512 .bf16) (x : S512x2000.Idx) :
    k0_pay12 (F := Ideal) w e x = k0_pay10 (F := Ideal) w e x * Cert.Spec.s64 := by
  unfold k0_pay12
  generalize k0_pay10 (F := Ideal) w e = c
  rfl

theorem pay13_row (w : Vec Ideal S2000x512 .f32) (e : Vec Ideal S512x512 .bf16) (m : Vec Ideal S512x1 .f32) (b : Fin 512) :
    k0_pay13 (F := Ideal) w e m (ix2 b 0)
      = max (m (ix2 b 0)) ((Finset.univ : Finset (Fin 2000)).fold max ⊥ (fun j => k0_pay12 (F := Ideal) w e (ix2 b j))) := by
  unfold k0_pay13
  generalize k0_pay12 (F := Ideal) w e = c
  rw [maximumf_apply]
  exact congrArg (max (m (ix2 b 0))) (laneMax_row _ _ _ _ _ b 0)

theorem pay1_row (x : FVec Ideal S512x2000 .f32) (m' : FVec Ideal S512x1 .f32) (m l : Vec Ideal S512x1 .f32) (b : Fin 512) :
    k0_pay1 (F := Ideal) x m' m l (ix2 b 0)
      = Ideal.exp (m (ix2 b 0) - m' (ix2 b 0)) * l (ix2 b 0) + ∑ j : Fin 2000, Ideal.exp (x (ix2 b j) - m' (ix2 b 0)) := by
  unfold k0_pay1
  refine (congrFun (shapeCast_self _ _) _).trans ?_
  rw [addf_apply, mulf_apply, exp_apply, subf_apply]
  refine congrArg (HAdd.hAdd _) ?_
  refine (laneSum_row _ _ _ _ _ b 0).trans ?_
  refine Finset.sum_congr rfl fun j _ => ?_
  rw [exp_apply, subf_apply, broadcastTo_a1_ab_apply]

theorem pay2_row (c : FVec Ideal S512x2000 .f32) (o : IVec S512x2000 1) (t : Vec Ideal S512x1 .f32) (b : Fin 512) :
    k0_pay2 (F := Ideal) c o t (ix2 b 0)
      = t (ix2 b 0) + ∑ j : Fin 2000, (if o (ix2 b j) = 1#1 then c (ix2 b j) else 0) := by
  unfold k0_pay2
  refine (congrFun (shapeCast_self _ _) _).trans ?_
  rw [addf_apply]
  refine congrArg (HAdd.hAdd _) ?_
  refine (laneSum_row _ _ _ _ _ b 0).trans ?_
  refine Finset.sum_congr rfl fun j _ => ?_
  rw [select_apply, broadcast_apply, Ideal.ofBits_def, Ideal.ofBits_zero_f32]
  rfl

theorem step_row (i : grid0.Coords) (T : Fin 50) (hT : T.val = 25 * (i 0).val + (i 1).val)
    (w : Vec Ideal S2000x512 .f32) (e : Vec Ideal S512x512 .bf16) (lab : Vec Ideal S512x1 .i32)
    (L : Fin 512 → Fin 100000) (hL : ∀ b, lab (ix2 b 0) = BitVec.ofNat 32 (L b).val)
    (cs : Fin 512 → Fin 100000 → EReal)
    (hcos : ∀ b j, k0_pay10 (F := Ideal) w e (ix2 b j) = cs b (Cert.Spec.col T j))
    (m l t : Vec Ideal S512x1 .f32) (b : Fin 512) :
    (k0_pay13 (F := Ideal) w e m (ix2 b 0),
      k0_pay1 (F := Ideal) (k0_pay12 w e) (k0_pay13 w e m) m l (ix2 b 0),
      k0_pay2 (F := Ideal) (k0_pay10 w e) (k0_pay11 i lab) t (ix2 b 0))
      = Cert.Spec.stepK (cs b) (L b) T (m (ix2 b 0), l (ix2 b 0), t (ix2 b 0)) := by
  have h12 : ∀ j : Fin 2000, k0_pay12 (F := Ideal) w e (ix2 b j) = cs b (Cert.Spec.col T j) * Cert.Spec.s64 := fun j => by
    rw [pay12_apply, hcos]
  have h13 : k0_pay13 (F := Ideal) w e m (ix2 b 0)
      = max (m (ix2 b 0)) ((Finset.univ : Finset (Fin 2000)).fold max ⊥ (fun j => cs b (Cert.Spec.col T j) * Cert.Spec.s64)) := by
    rw [pay13_row]
    exact congrArg (fun f => max (m (ix2 b 0)) ((Finset.univ : Finset (Fin 2000)).fold max ⊥ f)) (funext h12)
  have hone : ∀ j : Fin 2000, (if k0_pay11 (F := Ideal) i lab (ix2 b j) = 1#1 then k0_pay10 (F := Ideal) w e (ix2 b j) else 0)
      = if Cert.Spec.col T j = L b then cs b (Cert.Spec.col T j) else 0 := fun j => by
    rw [hcos]
    exact if_congr (onehot_row i T hT lab L hL b j) rfl rfl
  rw [pay1_row, pay2_row]
  generalize k0_pay13 (F := Ideal) w e m (ix2 b 0) = M at h13 ⊢
  subst h13
  unfold Cert.Spec.stepK
  refine Prod.ext rfl (Prod.ext ?_ ?_)
  · exact congrArg (HAdd.hAdd _) (Finset.sum_congr rfl fun j _ => by rw [h12 j])
  · exact congrArg (HAdd.hAdd _) (Finset.sum_congr rfl fun j _ => hone j)

theorem coe_sum {ι : Type} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

theorem coe_max (a b : ℝ) : ((max a b : ℝ) : EReal) = max (a : EReal) (b : EReal) :=
  EReal.coe_strictMono.monotone.map_max

theorem sqrt_max_sq (s ε : ℝ) (hε : 0 ≤ ε) : Real.sqrt (max s (ε * ε)) = max (Real.sqrt s) ε := by
  have hm : Monotone Real.sqrt := fun _ _ h => Real.sqrt_le_sqrt h
  rw [hm.map_max, Real.sqrt_mul_self hε]

theorem mul_rsqrt_eq_div (x s ε : ℝ) (hs : 0 ≤ s) (hε : 0 < ε) :
    (x : EReal) * Ideal.rsqrt (max (s : EReal) ((ε : EReal) * (ε : EReal)))
      = Ideal.div (x : EReal) (max (Ideal.sqrt (0 + (s : EReal))) (ε : EReal)) := by
  have hr : 0 < max s (ε * ε) := lt_max_of_lt_right (mul_pos hε hε)
  have hd : 0 < max (Real.sqrt s) ε := lt_max_of_lt_right hε
  have e1 : max (s : EReal) ((ε : EReal) * (ε : EReal)) = ((max s (ε * ε) : ℝ) : EReal) := by
    rw [coe_max, EReal.coe_mul]
  have e2 : Ideal.rsqrt ((max s (ε * ε) : ℝ) : EReal) = (((Real.sqrt (max s (ε * ε)))⁻¹ : ℝ) : EReal) := by
    rw [Ideal.rsqrt_coe, if_neg (not_lt.mpr hr.le), if_neg hr.ne']
  have e3 : max (Ideal.sqrt (0 + (s : EReal))) (ε : EReal) = ((max (Real.sqrt s) ε : ℝ) : EReal) := by
    rw [zero_add, Ideal.sqrt_coe, if_neg (not_lt.mpr hs), coe_max]
  rw [e1, e2, e3, Ideal.div_coe hd.ne', sqrt_max_sq s ε hε.le, one_div]

theorem eps12_real : ∃ ε : ℝ, 0 < ε ∧ Cert.Spec.eps12 = (ε : EReal) := by
  refine ⟨2305843 / 2305843009213693952, by norm_num, ?_⟩
  simp [Cert.Spec.lit, Ideal.ofBits, Ideal.ieee, -EReal.coe_mul]
  norm_num

theorem dot_lhs_0 (i : S512x2000.Idx) (q : dot_S512x512_S2000x512_S512x2000_1_1_0_0_n_n.contr.Idx) :
    (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl

theorem dot_lhs_1 (i : S512x2000.Idx) (q : dot_S512x512_S2000x512_S512x2000_1_1_0_0_n_n.contr.Idx) :
    (dot_S512x512_S2000x512_S512x2000_1_1_0_0_n_n.lhsIdx i q 1).val = (q ⟨0, by decide⟩).val :=
  dot_S512x512_S2000x512_S512x2000_1_1_0_0_n_n.lhsIdx_val_of_single rfl i q

theorem dot_rhs_0 (i : S512x2000.Idx) (q : dot_S512x512_S2000x512_S512x2000_1_1_0_0_n_n.contr.Idx) :
    (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl

theorem dot_rhs_1 (i : S512x2000.Idx) (q : dot_S512x512_S2000x512_S512x2000_1_1_0_0_n_n.contr.Idx) :
    (dot_S512x512_S2000x512_S512x2000_1_1_0_0_n_n.rhsIdx i q 1).val = (q ⟨0, by decide⟩).val :=
  dot_S512x512_S2000x512_S512x2000_1_1_0_0_n_n.rhsIdx_val_of_single rfl i q

theorem matmul_row (lhs : FVec Ideal S512x512 .bf16) (rhs : FVec Ideal S2000x512 .bf16) (b : Fin 512) (j : Fin 2000) :
    matmul dot_S512x512_S2000x512_S512x2000_1_1_0_0_n_n none lhs rhs (constant (F := Ideal) S512x2000 .f32 0x00000000#32) (ix2 b j)
      = ∑ k : Fin 512, lhs (ix2 b k) * rhs (ix2 j k) := by
  simp only [matmul]
  rw [Ideal.matmul_constant_zero_apply, ← Equiv.sum_comp (contrEquiv1 dot_S512x512_S2000x512_S512x2000_1_1_0_0_n_n 512 rfl rfl).symm]
  refine Finset.sum_congr rfl fun k _ => ?_
  have hk := contrEquiv1_symm_val dot_S512x512_S2000x512_S512x2000_1_1_0_0_n_n 512 rfl rfl k
  have el : dot_S512x512_S2000x512_S512x2000_1_1_0_0_n_n.lhsIdx (ix2 b j) ((contrEquiv1 dot_S512x512_S2000x512_S512x2000_1_1_0_0_n_n 512 rfl rfl).symm k) = ix2 b k := funext fun a => Fin.ext (by
    match a with
    | ⟨0, _⟩ => exact dot_lhs_0 _ _
    | ⟨1, _⟩ => exact (dot_lhs_1 _ _).trans hk)
  have er : dot_S512x512_S2000x512_S512x2000_1_1_0_0_n_n.rhsIdx (ix2 b j) ((contrEquiv1 dot_S512x512_S2000x512_S512x2000_1_1_0_0_n_n 512 rfl rfl).symm k) = ix2 j k := funext fun a => Fin.ext (by
    match a with
    | ⟨0, _⟩ => exact dot_rhs_0 _ _
    | ⟨1, _⟩ => exact (dot_rhs_1 _ _).trans hk)
  rw [el, er]

def wTile (w : Vec Ideal S2000x512 .f32) : FVec Ideal S2000x512 .f32 :=
  mulf w (broadcastTo S2000x512 (rsqrt (maximumf
    (shapeCast S2000x1 (multiReduction (F := Ideal) .add [1] S2000 (mulf w w) 0x00000000#32 reduces_S2000x512_S2000 (.inl rfl) rfl)
      shapeCasts_S2000_S2000x1)
    (broadcast S2000x1 (Named.named (F := Ideal) κ "eps_norm_sq" (φ := .f32) 0x179ABE15#32)))) broadcasts_S2000x1_S2000x512)

theorem wTile_apply (w : Vec Ideal S2000x512 .f32) (j : Fin 2000) (k : Fin 512) :
    wTile w (ix2 j k) = w (ix2 j k) * Ideal.rsqrt (max (∑ k' : Fin 512, w (ix2 j k') * w (ix2 j k')) (Named.named (F := Ideal) κ "eps_norm_sq" (φ := .f32) 0x179ABE15#32)) := by
  unfold wTile
  generalize (Named.named (F := Ideal) κ "eps_norm_sq" (φ := .f32) 0x179ABE15#32) = c
  rw [mulf_apply]
  refine congrArg (HMul.hMul _) ?_
  refine (broadcastTo_a1_ab_apply _ _ j k).trans ?_
  rw [rsqrt_apply, maximumf_apply, broadcast_apply]
  refine (congrArg (fun z => Ideal.rsqrt (max z c)) (laneSum_row _ _ _ _ _ j 0)).trans ?_
  refine congrArg (fun z => Ideal.rsqrt (max z c)) (Finset.sum_congr rfl fun k' _ => ?_)
  rw [mulf_apply]

theorem pay10_eq (w : Vec Ideal S2000x512 .f32) (e : Vec Ideal S512x512 .bf16) :
    k0_pay10 (F := Ideal) w e = minimumf (broadcast S512x2000 (Scalar.ofBits .f32 0x3F7FFFFE#32))
      (maximumf (broadcast S512x2000 (Scalar.ofBits .f32 0xBF7FFFFE#32))
        (matmul dot_S512x512_S2000x512_S512x2000_1_1_0_0_n_n none (shapeCast S512x512 e shapeCasts_S512x512_S512x512 : FVec Ideal S512x512 .bf16)
          (truncf .bf16 (wTile w) bitsLt_bf16_f32) (constant (F := Ideal) S512x2000 .f32 0x00000000#32))) := rfl

theorem wnorm_row (W : Cert.Spec.SW.Idx → EReal) (T : Fin 50) (w : Vec Ideal S2000x512 .f32)
    (hw : ∀ j k, w (ix2 j k) = W (ix2 (Cert.Spec.col T j) k)) (hfin : ∀ i, ∃ r : ℝ, W i = (r : EReal))
    (heps : Named.named (F := Ideal) κ "eps_norm_sq" (φ := .f32) 0x179ABE15#32 = Cert.Spec.eps12 * Cert.Spec.eps12) (j : Fin 2000) (k : Fin 512) :
    wTile w (ix2 j k) = Cert.Spec.wN W (Cert.Spec.col T j) k := by
  obtain ⟨ε, hεpos, hε⟩ := eps12_real
  choose r hr using hfin
  have hsq : ∑ k' : Fin 512, W (ix2 (Cert.Spec.col T j) k') * W (ix2 (Cert.Spec.col T j) k')
      = ((∑ k' : Fin 512, r (ix2 (Cert.Spec.col T j) k') * r (ix2 (Cert.Spec.col T j) k') : ℝ) : EReal) := by
    rw [← coe_sum]
    refine Finset.sum_congr rfl fun k' _ => ?_
    rw [hr, ← EReal.coe_mul]
  have hs0 : 0 ≤ ∑ k' : Fin 512, r (ix2 (Cert.Spec.col T j) k') * r (ix2 (Cert.Spec.col T j) k') :=
    Finset.sum_nonneg fun k' _ => mul_self_nonneg _
  have hrow : ∑ k' : Fin 512, w (ix2 j k') * w (ix2 j k')
      = ∑ k' : Fin 512, W (ix2 (Cert.Spec.col T j) k') * W (ix2 (Cert.Spec.col T j) k') :=
    Finset.sum_congr rfl fun k' _ => by rw [hw]
  rw [wTile_apply, hrow, heps, hw]
  unfold Cert.Spec.wN
  rw [hsq, hε, hr]
  exact mul_rsqrt_eq_div _ _ _ hs0 hεpos

theorem cosTile (X : Cert.Spec.SE.Idx → EReal) (W : Cert.Spec.SW.Idx → EReal) (T : Fin 50)
    (w : Vec Ideal S2000x512 .f32) (e : Vec Ideal S512x512 .bf16)
    (he : ∀ b k, e (ix2 b k) = Cert.Spec.eN X b k) (hw : ∀ j k, w (ix2 j k) = W (ix2 (Cert.Spec.col T j) k))
    (hfin : ∀ i, ∃ r : ℝ, W i = (r : EReal))
    (heps : Named.named (F := Ideal) κ "eps_norm_sq" (φ := .f32) 0x179ABE15#32 = Cert.Spec.eps12 * Cert.Spec.eps12) (b : Fin 512) (j : Fin 2000) :
    k0_pay10 (F := Ideal) w e (ix2 b j) = Cert.Spec.cosS X W b (Cert.Spec.col T j) := by
  rw [pay10_eq]
  generalize hv : wTile w = v
  have hwn : ∀ k, v (ix2 j k) = Cert.Spec.wN W (Cert.Spec.col T j) k := fun k => by
    rw [← hv]
    exact wnorm_row W T w hw hfin heps j k
  rw [minimumf_apply, maximumf_apply, broadcast_apply, broadcast_apply, Ideal.ofBits_def, Ideal.ofBits_def]
  unfold Cert.Spec.cosS
  refine congrArg (fun z => min Cert.Spec.hi (max Cert.Spec.lo z)) ?_
  refine (matmul_row _ _ b j).trans ?_
  refine Finset.sum_congr rfl fun k _ => ?_
  rw [truncf_apply, hwn k]
  exact congrArg (· * Cert.Spec.wN W (Cert.Spec.col T j) k) ((congrFun (shapeCast_self e _) _).trans (he b k))

end Cert.KernelIdeal.Step

end
-- ==== Proof.KBlocks.lean ====
import proofs.«402655_j76381698392241_2_alg».proof.Proof.KFrameKit
import proofs.«402655_j76381698392241_2_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open scoped BigOperators
open Idealize.ShloMosaic.Pipeline (Dat)

variable {F : FTy → Type} [FloatOps F] [Named F]
variable (m : (ℓ : Loc nD τ sig) → Buf (Elt F) ℓ)

theorem idx1_facts : ∀ t : Fin cfg0.N, win0_1.index t (0 : Fin 2) = t.val ∧ win0_1.index t (1 : Fin 2) = 0 :=
  (by decide +kernel : ∀ t : Fin grid0.N, _)

theorem iblk1_apply (c : Dev nD) (t : Fin cfg0.N) (j : Fin 2000) (k : Fin 512) :
    (iblk m c 1 t : Vec F S2000x512 .f32) (ix2 j k)
      = (m ((c : Thread nD τ).loc main_arg1) : S100000x512.Idx → Elt F .f32) (ix2 (Cert.Spec.col ⟨t.val, lt_of_lt_of_eq t.isLt N_0⟩ j) k) := by
  have hi := idx1_facts t
  unfold iblk
  rw [View.read_apply]
  show V m c main_arg1 _ = _
  rw [V_main_arg1]
  congr 1
  funext a
  apply Fin.ext
  match a with
  | ⟨0, _⟩ => show win0_1.index t 0 * 2000 + 1 * j.val = 2000 * t.val + j.val; rw [hi.1]; omega
  | ⟨1, _⟩ => show win0_1.index t 1 * 512 + 1 * k.val = k.val; rw [hi.2]; omega

theorem V_v9 (c : Dev nD) :
    (V m c main_v9 : S512x1.Idx → Elt F .i32)
      = shapeCast S512x1 (m ((c : Thread nD τ).loc main_arg2) : S512.Idx → Elt F .i32) shapeCasts_S512_S512x1 := by
  dsimp only [V, V0]
  simp only [hostOps0, List.flatten_cons, List.flatten_nil, List.append_nil]
  after_results
  rfl

theorem idx2_facts : ∀ t : Fin cfg0.N, win0_2.index t (0 : Fin 2) = 0 ∧ win0_2.index t (1 : Fin 2) = 0 :=
  (by decide +kernel : ∀ t : Fin grid0.N, _)

theorem iblk2_apply (c : Dev nD) (t : Fin cfg0.N) (b : Fin 512) :
    (iblk m c 2 t : Vec F S512x1 .i32) (ix2 b 0)
      = (m ((c : Thread nD τ).loc main_arg2) : S512.Idx → Elt F .i32) (ix1 b) := by
  have hi := idx2_facts t
  unfold iblk
  rw [View.read_apply]
  show V m c main_v9 _ = _
  rw [V_v9]
  refine shapeCast_apply (s := S512) (t := S512x1) _ _ _ (ix1 b) ?_
  rw [Shape.rowMajor_val_one, Shape.rowMajor_val_two]
  show b.val = (win0_2.index t 0 * 512 + 1 * b.val) * 1 + (win0_2.index t 1 * 1 + 1 * 0)
  rw [hi.1, hi.2]; omega

theorem rowSq_apply (x : FVec Ideal S512x512 .f32) (b : Fin 512) :
    (Host.reduceAdd (mulf x x) (constant (F := Ideal) S_ .f32 0x00000000#32) reducesTo_S512x512_S512_d1 h_S_ : FVec Ideal S512 .f32) (ix1 b)
      = 0 + ∑ k' : Fin 512, x (ix2 b k') * x (ix2 b k') := by
  have hR : S512x512.Reduces [1] S512 := by decide
  have hlift : ∀ k' : Fin 512, hR.lift (ix1 b) k' = ix2 b k' := fun k' => funext fun a => by
    match a with
    | ⟨0, _⟩ => exact Fin.ext rfl
    | ⟨1, _⟩ => exact Fin.ext rfl
  rw [hostReduceAdd_apply]
  refine (Ideal.hostReduceAdd_single reducesTo_S512x512_S512_d1 hR _ _ _).trans ?_
  rw [constant_apply, Ideal.ofBits_zero_f32]
  congr 1
  refine Finset.sum_congr rfl fun k' _ => ?_
  rw [mulf_apply]
  exact congrArg (fun i => x i * x i) (hlift k')

theorem stage0_apply (x : FVec Ideal S512x512 .f32) (b k : Fin 512) :
    (truncf .bf16 (Host.divf x (broadcastInDim S512x512 ![0, 1] bcast_S512x1_S512x512_0_1
        (maximumf (Host.sqrt (broadcastInDim S512x1 ![0] bcast_S512_S512x1_0
            (Host.reduceAdd (mulf x x) (constant (F := Ideal) S_ .f32 0x00000000#32) reducesTo_S512x512_S512_d1 h_S_)))
          (broadcastInDim S512x1 ![] bcast_S_S512x1 (constant (F := Ideal) S_ .f32 0x2B8CBCCC#32)))))
      bitsLt_bf16_f32 : FVec Ideal S512x512 .bf16) (ix2 b k) = Cert.Spec.eN x b k := by
  have hrow : (broadcastInDim S512x1 ![0] bcast_S512_S512x1_0
      (Host.reduceAdd (mulf x x) (constant (F := Ideal) S_ .f32 0x00000000#32) reducesTo_S512x512_S512_d1 h_S_) : FVec Ideal S512x1 .f32) (ix2 b 0)
        = 0 + ∑ k' : Fin 512, x (ix2 b k') * x (ix2 b k') := by
    refine (broadcastInDim_apply _ _ _ (ix2 b 0) (ix1 b) (fun a => ?_)).trans (rowSq_apply x b)
    match a with
    | ⟨0, _⟩ => rfl
  have heps : (broadcastInDim S512x1 ![] bcast_S_S512x1 (constant (F := Ideal) S_ .f32 0x2B8CBCCC#32) : FVec Ideal S512x1 .f32) (ix2 b 0)
      = Cert.Spec.eps12 := (broadcastInDim_scalar_apply _ _ _).trans rfl
  unfold Cert.Spec.eN
  rw [truncf_apply, hostDivf_apply]
  congr 1
  refine (broadcastInDim_apply _ _ _ (ix2 b k) (ix2 b 0) (fun a => ?_)).trans ?_
  · match a with
    | ⟨0, _⟩ => rfl
    | ⟨1, _⟩ => rfl
  rw [maximumf_apply, heps]
  congr 1
  show Ideal.sqrt _ = _
  rw [hrow]

section AtIdeal
variable (mI : (ℓ : Loc nD τ sig) → Buf (Elt Ideal) ℓ)

theorem V_v8 (c : Dev nD) :
    (V mI c main_v8 : S512x512.Idx → Elt Ideal .bf16)
      = (truncf .bf16 (Host.divf (mI ((c : Thread nD τ).loc main_arg0) : FVec Ideal S512x512 .f32) (broadcastInDim S512x512 ![0, 1] bcast_S512x1_S512x512_0_1
          (maximumf (Host.sqrt (broadcastInDim S512x1 ![0] bcast_S512_S512x1_0
              (Host.reduceAdd (mulf (mI ((c : Thread nD τ).loc main_arg0) : FVec Ideal S512x512 .f32) (mI ((c : Thread nD τ).loc main_arg0) : FVec Ideal S512x512 .f32))
                (constant (F := Ideal) S_ .f32 0x00000000#32) reducesTo_S512x512_S512_d1 h_S_)))
            (broadcastInDim S512x1 ![] bcast_S_S512x1 (constant (F := Ideal) S_ .f32 0x2B8CBCCC#32)))))
        bitsLt_bf16_f32 : FVec Ideal S512x512 .bf16) := by
  dsimp only [V, V0]
  simp only [hostOps0, List.flatten_cons, List.flatten_nil, List.append_nil]
  after_results

theorem idx0_facts : ∀ t : Fin cfg0.N, win0_0.index t (0 : Fin 2) = 0 ∧ win0_0.index t (1 : Fin 2) = 0 :=
  (by decide +kernel : ∀ t : Fin grid0.N, _)

theorem iblk0_apply (c : Dev nD) (t : Fin cfg0.N) (b k : Fin 512) :
    (iblk mI c 0 t : Vec Ideal S512x512 .bf16) (ix2 b k) = Cert.Spec.eN (mI ((c : Thread nD τ).loc main_arg0)) b k := by
  have hi := idx0_facts t
  unfold iblk
  rw [View.read_apply]
  show V mI c main_v8 _ = _
  rw [V_v8]
  refine Eq.trans (congrArg _ ?_) (stage0_apply (mI ((c : Thread nD τ).loc main_arg0)) b k)
  funext a
  apply Fin.ext
  match a with
  | ⟨0, _⟩ => show win0_0.index t 0 * 512 + 1 * b.val = b.val; rw [hi.1]; omega
  | ⟨1, _⟩ => show win0_0.index t 1 * 512 + 1 * k.val = k.val; rw [hi.2]; omega

end AtIdeal

end Cert.KernelIdeal.Hand

end
-- ==== Proof.Consts.lean ====
import proofs.«402655_j76381698392241_2_alg».proof.Proof.Spec
import Idealize.ShloMosaic.PureOps.Ideal

noncomputable section

namespace Cert.Consts

open Idealize.ShloMosaic Cert.Spec

theorem eps12_eq : eps12 = ((2305843 / 2305843009213693952 : ℝ) : EReal) := by
  simp [lit, Ideal.ofBits, Ideal.ieee, -EReal.coe_mul]; norm_num

theorem eps12_real_pos : (0 : ℝ) < 2305843 / 2305843009213693952 := by norm_num

theorem eps12_pos : (0 : EReal) < eps12 := by
  rw [eps12_eq]; exact_mod_cast eps12_real_pos

theorem eps12_sq : eps12 * eps12 = ((5316911940649 / 5316911983139663491615228241121378304 : ℝ) : EReal) := by
  rw [eps12_eq, ← EReal.coe_mul]; norm_num

theorem one_eq : one = 1 := by
  simp [lit, Ideal.ofBits, Ideal.ieee, -EReal.coe_mul]; norm_num

theorem s64_eq : s64 = ((64 : ℝ) : EReal) := by
  simp [lit, Ideal.ofBits, Ideal.ieee, -EReal.coe_mul]; norm_num

theorem c512_eq : c512 = ((512 : ℝ) : EReal) := by
  simp [lit, Ideal.ofBits, Ideal.ieee, -EReal.coe_mul]; norm_num

theorem lit_zero : lit 0#32 = 0 := by
  simp [lit, Ideal.ofBits, Ideal.ieee]

theorem lit_neg_inf : lit 0xFF800000#32 = ⊥ := by
  simp [lit, Ideal.ofBits, Ideal.ieee]

end Cert.Consts

end
-- ==== Proof.KClosed.lean ====
import proofs.«402655_j76381698392241_2_alg».proof.Proof.KFrame
import proofs.«402655_j76381698392241_2_alg».proof.Proof.KStep
import proofs.«402655_j76381698392241_2_alg».proof.Proof.KBlocks
import proofs.«402655_j76381698392241_2_alg».proof.Proof.Consts
import Idealize.ShloMosaic.PureOps.IdealRules

noncomputable section

namespace Cert.KernelIdeal.Hand

open Cert.KernelIdeal Cert.KernelIdeal.Gen
open Idealize.ShloMosaic Idealize.ShloMosaic.TcCoe Idealize.ShloMosaic.ValueIdx Idealize.SL.Sem

variable (mI : (ℓ : Loc nD τ sig) → Buf (Elt Ideal) ℓ)

theorem coords_val : ∀ t : Fin cfg0.N, ((grid0.coords t) 0).val = t.val / 25 ∧ ((grid0.coords t) 1).val = t.val % 25 :=
  (by decide +kernel : ∀ t : Fin grid0.N, ((grid0.coords t) 0).val = t.val / 25 ∧ ((grid0.coords t) 1).val = t.val % 25)

theorem named_eps : Named.named (F := Ideal) κ "eps_norm_sq" (φ := .f32) 0x179ABE15#32 = Cert.Spec.eps12 * Cert.Spec.eps12 :=
  (IdealRules.named_const.ideal_named_scalar _ _ _ _ rfl).trans Cert.Consts.eps12_sq.symm

def tileAt (t : Fin cfg0.N) : Fin 50 := ⟨t.val, lt_of_lt_of_eq t.isLt N_0⟩

def halfOf (n : ℕ) (hn : n < cfg0.N) : Fin 2 := ⟨n / 25, by have h : n < 50 := lt_of_lt_of_eq hn N_0; omega⟩

def rowAt (b : Fin 512) (T : Vec Ideal S512x1 .f32 × Vec Ideal S512x1 .f32 × Vec Ideal S512x1 .f32) : EReal × EReal × EReal :=
  (T.1 (ix2 b 0), T.2.1 (ix2 b 0), T.2.2 (ix2 b 0))

def scrAt (c : Dev nD) (n : ℕ) (hn : n < cfg0.N) : Vec Ideal S512x1 .f32 × Vec Ideal S512x1 .f32 × Vec Ideal S512x1 .f32 :=
  (outsAt0 mI c n hn).2.2.2

section Row

variable (c : Dev nD) (L : Fin 512 → Fin 100000)
  (hL : ∀ b, (mI ((c : Thread nD τ).loc main_arg2) : S512.Idx → BitVec 32) (ix1 b) = BitVec.ofNat 32 (L b).val)
  (hfin : ∀ i, ∃ r : ℝ, (mI ((c : Thread nD τ).loc main_arg1) : S100000x512.Idx → EReal) i = (r : EReal))

abbrev cosRow (b : Fin 512) : Fin 100000 → EReal :=
  Cert.Spec.cosS (mI ((c : Thread nD τ).loc main_arg0)) (mI ((c : Thread nD τ).loc main_arg1)) b

include hfin in
theorem cos_at (t : Fin cfg0.N) (b : Fin 512) (j : Fin 2000) :
    k0_pay10 (F := Ideal) (wblk mI c t) (eblk mI c t) (ix2 b j) = cosRow mI c b (Cert.Spec.col (tileAt t) j) :=
  Cert.KernelIdeal.Step.cosTile (mI ((c : Thread nD τ).loc main_arg0)) (mI ((c : Thread nD τ).loc main_arg1)) (tileAt t)
    (wblk mI c t) (eblk mI c t) (fun b k => iblk0_apply mI c t b k) (fun j k => iblk1_apply mI c t j k) hfin named_eps b j

include hL hfin in
theorem step_at (t : Fin cfg0.N) (p : Vec Ideal S512x1 .f32 × Vec Ideal S512x1 .f32 × Vec Ideal S512x1 .f32) (b : Fin 512) :
    rowAt b (stepS mI c t p) = Cert.Spec.stepK (cosRow mI c b) (L b) (tileAt t) (rowAt b p) := by
  unfold rowAt stepS
  rw [Cert.KernelIdeal.Step.pay3_id]
  exact Cert.KernelIdeal.Step.step_row (grid0.coords t) (tileAt t)
    (by have h := coords_val t; show t.val = 25 * ((grid0.coords t) 0).val + ((grid0.coords t) 1).val; rw [h.1, h.2]; omega)
    (wblk mI c t) (eblk mI c t) (lblk mI c t) L (fun b => (iblk2_apply mI c t b).trans (hL b))
    (fun b => cosRow mI c b) (fun b j => cos_at mI c hfin t b j) p.1 p.2.1 p.2.2 b

include hL hfin in
theorem scr_closed : ∀ (n : ℕ) (hn : n < cfg0.N) (b : Fin 512),
    rowAt b (scrAt mI c n hn) = Cert.Spec.stK (cosRow mI c b) (L b) (halfOf n hn) (n % 25) := by
  intro n
  induction n with
  | zero =>
    intro hn b
    have e := scr_step_first mI c ⟨0, hn⟩ (Nat.zero_mod 25)
    refine (congrArg (rowAt b) e).trans ?_
    refine (step_at mI c L hL hfin ⟨0, hn⟩ initS b).trans ?_
    show Cert.Spec.stepK _ _ _ (rowAt b _) = Cert.Spec.stepK _ _ (Cert.Spec.tileOf _ 0) Cert.Spec.initK
    rw [show rowAt b (initS (F := Ideal)) = Cert.Spec.initK from
      Cert.KernelIdeal.Step.init_row b]
    rfl
  | succ k ih =>
    intro hn b
    have hN : k + 1 < 50 := lt_of_lt_of_eq hn N_0
    by_cases h0 : (k + 1) % 25 = 0
    · have e := scr_step_first mI c ⟨k + 1, hn⟩ h0
      refine (congrArg (rowAt b) e).trans ?_
      refine (step_at mI c L hL hfin ⟨k + 1, hn⟩ initS b).trans ?_
      rw [h0]
      show Cert.Spec.stepK _ _ _ (rowAt b _) = Cert.Spec.stepK _ _ (Cert.Spec.tileOf _ 0) Cert.Spec.initK
      congr 1
      · refine Fin.ext ?_
        show k + 1 = (25 * ((k + 1) / 25) + 0) % 50
        omega
      · exact Cert.KernelIdeal.Step.init_row b
    · have e := scr_step_next mI c ⟨k + 1, hn⟩ h0
      refine (congrArg (rowAt b) e).trans ?_
      refine (step_at mI c L hL hfin ⟨k + 1, hn⟩ (scrAt mI c k (Nat.lt_of_succ_lt hn)) b).trans ?_
      rw [ih (Nat.lt_of_succ_lt hn) b]
      obtain ⟨k', hk'⟩ : ∃ k', (k + 1) % 25 = k' + 1 := ⟨(k + 1) % 25 - 1, by omega⟩
      have hk : k % 25 = k' := by omega
      have hh : halfOf k (Nat.lt_of_succ_lt hn) = halfOf (k + 1) hn := Fin.ext (by show k / 25 = (k + 1) / 25; omega)
      rw [hk', hk, hh]
      show _ = Cert.Spec.stepK _ _ (Cert.Spec.tileOf _ (k' + 1)) (Cert.Spec.stK _ _ _ k')
      congr 1
      refine Fin.ext ?_
      show k + 1 = (25 * ((k + 1) / 25) + (k' + 1)) % 50
      omega

end Row

end Cert.KernelIdeal.Hand

end
-- ==== Proof.KFinal.lean ====
import proofs.«402655_j76381698392241_2_alg».proof.Proof.KFrame
import proofs.«402655_j76381698392241_2_alg».proof.Proof.KClosed
import proofs.«402655_j76381698392241_2_alg».proof.Proof.KStep
import proofs.«402655_j76381698392241_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen Cert.KernelIdeal.Step
open Idealize.ShloMosaic Idealize.ShloMosaic.TcCoe Idealize.ShloMosaic.ValueIdx Idealize.ShloMosaic.Tactic
open Idealize.SL.Sem
open Idealize.ShloMosaic.Pipeline (Dat)

variable (mI : (ℓ : Loc nD τ sig) → Buf (Elt Ideal) ℓ) (c : Dev nD) (L : Fin 512 → Fin 100000)
  (hL : ∀ b, (mI ((c : Thread nD τ).loc main_arg2) : S512.Idx → BitVec 32) (ix1 b) = BitVec.ofNat 32 (L b).val)
  (hfin : ∀ i, ∃ r : ℝ, (mI ((c : Thread nD τ).loc main_arg1) : S100000x512.Idx → EReal) i = (r : EReal))

theorem blockIdx_eq (y : S1x512x1.Idx) : ∃ b : Fin 512, y = (ix3 (0 : Fin 1) b (0 : Fin 1) : S1x512x1.Idx) := by
  refine ⟨y 1, funext fun a => ?_⟩
  match a with
  | ⟨0, _⟩ => exact Fin.ext (by have : (y 0).val < 1 := (y 0).isLt; show (y 0).val = 0; omega)
  | ⟨1, _⟩ => rfl
  | ⟨2, _⟩ => exact Fin.ext (by have : (y 2).val < 1 := (y 2).isLt; show (y 2).val = 0; omega)

abbrev stLast (h : Fin 2) (b : Fin 512) : EReal × EReal × EReal :=
  Cert.Spec.stK (Cert.Spec.cosS (mI ((c : Thread nD τ).loc main_arg0) : S512x512.Idx → EReal) (mI ((c : Thread nD τ).loc main_arg1) : S100000x512.Idx → EReal) b) (L b) h 24

include hL hfin in
theorem scr_last (t : Fin cfg0.N) (h24 : t.val % 25 = 24) (b : Fin 512) :
    rowAt b (scrAt mI c t.val t.isLt) = stLast mI c L (halfOf t.val t.isLt) b := by
  have hs := scr_closed mI c L hL hfin t.val t.isLt b
  rw [h24] at hs
  exact hs

theorem idx3_facts : ∀ t : Fin cfg0.N, win0_3.index t (0 : Fin 3) = t.val / 25 ∧ win0_3.index t (1 : Fin 3) = 0 ∧ win0_3.index t (2 : Fin 3) = 0 :=
  (by decide +kernel : ∀ t : Fin grid0.N, _)

abbrev G3 : S2x512x1.Idx → EReal := fun i => (stLast mI c L (i 0) (i 1)).1

include hL hfin in
theorem row3 (t : Fin cfg0.N) (h24 : t.val % 25 = 24) (b : Fin 512) :
    ((outsAt0 mI c t.val t.isLt).1 : S1x512x1.Idx → EReal) (ix3 0 b 0) = (stLast mI c L (halfOf t.val t.isLt) b).1 := by
  have ho : (outsAt0 mI c t.val t.isLt).1 = k0_pay4 ((outsAt0 mI c t.val t.isLt).2.2.2.1) :=
    congrArg (fun p => p.1) (out_last mI c t h24)
  rw [ho, pay4_row]
  exact congrArg (fun p => p.1) (scr_last mI c L hL hfin t h24 b)

theorem emb3 (t : Fin cfg0.N) (b : Fin 512) :
    ((cfg0.win 3).blk t).view.emb (ix3 (0 : Fin 1) b (0 : Fin 1) : S1x512x1.Idx) = (ix3 (halfOf t.val t.isLt) b (0 : Fin 1) : S2x512x1.Idx) := by
  obtain ⟨e0, e1, e2⟩ := idx3_facts t
  funext a
  apply Fin.ext
  match a with
  | ⟨0, _⟩ => show win0_3.index t 0 * 1 + 1 * 0 = t.val / 25; rw [e0]; omega
  | ⟨1, _⟩ => show win0_3.index t 1 * 512 + 1 * b.val = b.val; rw [e1]; omega
  | ⟨2, _⟩ => show win0_3.index t 2 * 1 + 1 * 0 = 0; rw [e2]

include hL hfin in
theorem flushed3_eq (t : Fin cfg0.N) (hf : (cfg0.win 3).flush t = true) :
    (dats mI 0 c).flushed 3 t = ((cfg0.win 3).blk t).view.read (Elt Ideal) (G3 mI c L) := by
  have h24 : t.val % 25 = 24 := (flush0_3 t).mp hf
  show (cfg0.win 3).cut (grid0.coords t) ((dats mI 0 c).after 3 t) = _
  rw [after0_3]
  funext y
  obtain ⟨b, rfl⟩ := blockIdx_eq y
  rw [View.read_apply]
  refine (row3 mI c L hL hfin t h24 b).trans ?_
  exact (congrArg (G3 mI c L) (emb3 t b)).symm

theorem mem_blk3 (t : Fin cfg0.N) (i : S2x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v10_0).slice (win0_3.rect t)).set ↔ _
  rw [View.set_slice_whole, Rect.mem_set_unit]
  exact Iff.rfl

theorem cover3 (i : S2x512x1.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) N_0.symm⟩, rfl⟩
  obtain ⟨e0, e1, e2⟩ := idx3_facts t
  refine ⟨t, (flush0_3 t).mpr (by omega), ?_⟩
  rw [mem_blk3]
  intro a
  match a with
  | ⟨0, _⟩ => show win0_3.index t 0 * 1 ≤ (i 0).val ∧ (i 0).val < win0_3.index t 0 * 1 + 1; rw [e0]; omega
  | ⟨1, _⟩ => show win0_3.index t 1 * 512 ≤ (i 1).val ∧ (i 1).val < win0_3.index t 1 * 512 + 512; rw [e1]; omega
  | ⟨2, _⟩ => show win0_3.index t 2 * 1 ≤ (i 2).val ∧ (i 2).val < win0_3.index t 2 * 1 + 1; rw [e2]; omega

include hL hfin in
theorem final3 :
    (dats mI 0 c).arrAt 3 cfg0.N = G3 mI c L :=
  (dats mI 0 c).arrAt_eq_of_cover 3 (G3 mI c L) (flushed3_eq mI c L hL hfin) (cover3)

include hL hfin in
theorem final_3_apply (h : Fin 2) (b : Fin 512) :
    ((dats mI 0 c).arrAt 3 cfg0.N : S2x512x1.Idx → EReal) (ix3 h b 0)
      = (Cert.Spec.stK (Cert.Spec.cosS (mI ((c : Thread nD τ).loc main_arg0) : S512x512.Idx → EReal) (mI ((c : Thread nD τ).loc main_arg1) : S100000x512.Idx → EReal) b) (L b) h 24).1 :=
  congrFun (final3 mI c L hL hfin) (ix3 h b 0)

theorem idx4_facts : ∀ t : Fin cfg0.N, win0_4.index t (0 : Fin 3) = t.val / 25 ∧ win0_4.index t (1 : Fin 3) = 0 ∧ win0_4.index t (2 : Fin 3) = 0 :=
  (by decide +kernel : ∀ t : Fin grid0.N, _)

abbrev G4 : S2x512x1.Idx → EReal := fun i => (stLast mI c L (i 0) (i 1)).2.1

include hL hfin in
theorem row4 (t : Fin cfg0.N) (h24 : t.val % 25 = 24) (b : Fin 512) :
    ((outsAt0 mI c t.val t.isLt).2.1 : S1x512x1.Idx → EReal) (ix3 0 b 0) = (stLast mI c L (halfOf t.val t.isLt) b).2.1 := by
  have ho : (outsAt0 mI c t.val t.isLt).2.1 = k0_pay5 ((outsAt0 mI c t.val t.isLt).2.2.2.2.1) :=
    congrArg (fun p => p.2.1) (out_last mI c t h24)
  rw [ho, pay5_row]
  exact congrArg (fun p => p.2.1) (scr_last mI c L hL hfin t h24 b)

theorem emb4 (t : Fin cfg0.N) (b : Fin 512) :
    ((cfg0.win 4).blk t).view.emb (ix3 (0 : Fin 1) b (0 : Fin 1) : S1x512x1.Idx) = (ix3 (halfOf t.val t.isLt) b (0 : Fin 1) : S2x512x1.Idx) := by
  obtain ⟨e0, e1, e2⟩ := idx4_facts t
  funext a
  apply Fin.ext
  match a with
  | ⟨0, _⟩ => show win0_4.index t 0 * 1 + 1 * 0 = t.val / 25; rw [e0]; omega
  | ⟨1, _⟩ => show win0_4.index t 1 * 512 + 1 * b.val = b.val; rw [e1]; omega
  | ⟨2, _⟩ => show win0_4.index t 2 * 1 + 1 * 0 = 0; rw [e2]

include hL hfin in
theorem flushed4_eq (t : Fin cfg0.N) (hf : (cfg0.win 4).flush t = true) :
    (dats mI 0 c).flushed 4 t = ((cfg0.win 4).blk t).view.read (Elt Ideal) (G4 mI c L) := by
  have h24 : t.val % 25 = 24 := (flush0_4 t).mp hf
  show (cfg0.win 4).cut (grid0.coords t) ((dats mI 0 c).after 4 t) = _
  rw [after0_4]
  funext y
  obtain ⟨b, rfl⟩ := blockIdx_eq y
  rw [View.read_apply]
  refine (row4 mI c L hL hfin t h24 b).trans ?_
  exact (congrArg (G4 mI c L) (emb4 t b)).symm

theorem mem_blk4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v10_1).slice (win0_4.rect t)).set ↔ _
  rw [View.set_slice_whole, Rect.mem_set_unit]
  exact Iff.rfl

theorem cover4 (i : S2x512x1.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) N_0.symm⟩, rfl⟩
  obtain ⟨e0, e1, e2⟩ := idx4_facts t
  refine ⟨t, (flush0_4 t).mpr (by omega), ?_⟩
  rw [mem_blk4]
  intro a
  match a with
  | ⟨0, _⟩ => show win0_4.index t 0 * 1 ≤ (i 0).val ∧ (i 0).val < win0_4.index t 0 * 1 + 1; rw [e0]; omega
  | ⟨1, _⟩ => show win0_4.index t 1 * 512 ≤ (i 1).val ∧ (i 1).val < win0_4.index t 1 * 512 + 512; rw [e1]; omega
  | ⟨2, _⟩ => show win0_4.index t 2 * 1 ≤ (i 2).val ∧ (i 2).val < win0_4.index t 2 * 1 + 1; rw [e2]; omega

include hL hfin in
theorem final4 :
    (dats mI 0 c).arrAt 4 cfg0.N = G4 mI c L :=
  (dats mI 0 c).arrAt_eq_of_cover 4 (G4 mI c L) (flushed4_eq mI c L hL hfin) (cover4)

include hL hfin in
theorem final_4_apply (h : Fin 2) (b : Fin 512) :
    ((dats mI 0 c).arrAt 4 cfg0.N : S2x512x1.Idx → EReal) (ix3 h b 0)
      = (Cert.Spec.stK (Cert.Spec.cosS (mI ((c : Thread nD τ).loc main_arg0) : S512x512.Idx → EReal) (mI ((c : Thread nD τ).loc main_arg1) : S100000x512.Idx → EReal) b) (L b) h 24).2.1 :=
  congrFun (final4 mI c L hL hfin) (ix3 h b 0)

theorem idx5_facts : ∀ t : Fin cfg0.N, win0_5.index t (0 : Fin 3) = t.val / 25 ∧ win0_5.index t (1 : Fin 3) = 0 ∧ win0_5.index t (2 : Fin 3) = 0 :=
  (by decide +kernel : ∀ t : Fin grid0.N, _)

abbrev G5 : S2x512x1.Idx → EReal := fun i => (stLast mI c L (i 0) (i 1)).2.2

include hL hfin in
theorem row5 (t : Fin cfg0.N) (h24 : t.val % 25 = 24) (b : Fin 512) :
    ((outsAt0 mI c t.val t.isLt).2.2.1 : S1x512x1.Idx → EReal) (ix3 0 b 0) = (stLast mI c L (halfOf t.val t.isLt) b).2.2 := by
  have ho : (outsAt0 mI c t.val t.isLt).2.2.1 = k0_pay6 ((outsAt0 mI c t.val t.isLt).2.2.2.2.2) :=
    congrArg (fun p => p.2.2) (out_last mI c t h24)
  rw [ho, pay6_row]
  exact congrArg (fun p => p.2.2) (scr_last mI c L hL hfin t h24 b)

theorem emb5 (t : Fin cfg0.N) (b : Fin 512) :
    ((cfg0.win 5).blk t).view.emb (ix3 (0 : Fin 1) b (0 : Fin 1) : S1x512x1.Idx) = (ix3 (halfOf t.val t.isLt) b (0 : Fin 1) : S2x512x1.Idx) := by
  obtain ⟨e0, e1, e2⟩ := idx5_facts t
  funext a
  apply Fin.ext
  match a with
  | ⟨0, _⟩ => show win0_5.index t 0 * 1 + 1 * 0 = t.val / 25; rw [e0]; omega
  | ⟨1, _⟩ => show win0_5.index t 1 * 512 + 1 * b.val = b.val; rw [e1]; omega
  | ⟨2, _⟩ => show win0_5.index t 2 * 1 + 1 * 0 = 0; rw [e2]

include hL hfin in
theorem flushed5_eq (t : Fin cfg0.N) (hf : (cfg0.win 5).flush t = true) :
    (dats mI 0 c).flushed 5 t = ((cfg0.win 5).blk t).view.read (Elt Ideal) (G5 mI c L) := by
  have h24 : t.val % 25 = 24 := (flush0_5 t).mp hf
  show (cfg0.win 5).cut (grid0.coords t) ((dats mI 0 c).after 5 t) = _
  rw [after0_5]
  funext y
  obtain ⟨b, rfl⟩ := blockIdx_eq y
  rw [View.read_apply]
  refine (row5 mI c L hL hfin t h24 b).trans ?_
  exact (congrArg (G5 mI c L) (emb5 t b)).symm

theorem mem_blk5 (t : Fin cfg0.N) (i : S2x512x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v10_2).slice (win0_5.rect t)).set ↔ _
  rw [View.set_slice_whole, Rect.mem_set_unit]
  exact Iff.rfl

theorem cover5 (i : S2x512x1.Idx) : ∃ t : Fin cfg0.N, (cfg0.win 5).flush t = true ∧ i ∈ ((cfg0.win 5).blk t).view.set := by
  have hi0 : (i 0).val < 2 := (i 0).isLt
  have hi1 : (i 1).val < 512 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) N_0.symm⟩, rfl⟩
  obtain ⟨e0, e1, e2⟩ := idx5_facts t
  refine ⟨t, (flush0_5 t).mpr (by omega), ?_⟩
  rw [mem_blk5]
  intro a
  match a with
  | ⟨0, _⟩ => show win0_5.index t 0 * 1 ≤ (i 0).val ∧ (i 0).val < win0_5.index t 0 * 1 + 1; rw [e0]; omega
  | ⟨1, _⟩ => show win0_5.index t 1 * 512 ≤ (i 1).val ∧ (i 1).val < win0_5.index t 1 * 512 + 512; rw [e1]; omega
  | ⟨2, _⟩ => show win0_5.index t 2 * 1 ≤ (i 2).val ∧ (i 2).val < win0_5.index t 2 * 1 + 1; rw [e2]; omega

include hL hfin in
theorem final5 :
    (dats mI 0 c).arrAt 5 cfg0.N = G5 mI c L :=
  (dats mI 0 c).arrAt_eq_of_cover 5 (G5 mI c L) (flushed5_eq mI c L hL hfin) (cover5)

include hL hfin in
theorem final_5_apply (h : Fin 2) (b : Fin 512) :
    ((dats mI 0 c).arrAt 5 cfg0.N : S2x512x1.Idx → EReal) (ix3 h b 0)
      = (Cert.Spec.stK (Cert.Spec.cosS (mI ((c : Thread nD τ).loc main_arg0) : S512x512.Idx → EReal) (mI ((c : Thread nD τ).loc main_arg1) : S100000x512.Idx → EReal) b) (L b) h 24).2.2 :=
  congrFun (final5 mI c L hL hfin) (ix3 h b 0)

end Cert.KernelIdeal.Hand

end
-- ==== Proof.KTail.lean ====
import proofs.«402655_j76381698392241_2_alg».proof.Proof.Gen.KernelIdeal.Launch
import proofs.«402655_j76381698392241_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Tail

open Cert.KernelIdeal Cert.KernelIdeal.Gen Idealize.ShloMosaic Idealize.ShloMosaic.ValueIdx Idealize.ShloMosaic.StableHlo

def half0 (a : FVec Ideal S2x512x1 .f32) : FVec Ideal S512x1 .f32 :=
  shapeCast S512x1 (extractStridedSlice S1x512x1 ![0, 0, 0] a slices_S2x512x1_S1x512x1_0_0_0) shapeCasts_S1x512x1_S512x1

def half1 (a : FVec Ideal S2x512x1 .f32) : FVec Ideal S512x1 .f32 :=
  shapeCast S512x1 (extractStridedSlice S1x512x1 ![1, 0, 0] a slices_S2x512x1_S1x512x1_1_0_0) shapeCasts_S1x512x1_S512x1

def splat (w : BitVec 32) : FVec Ideal S512x1 .f32 :=
  broadcastInDim S512x1 ![] bcast_S_S512x1 (constant (F := Ideal) S_ .f32 w)

def phiFn (ct : FVec Ideal S512x1 .f32) : FVec Ideal S512x1 .f32 :=
  select (cmpf .ogt ct (splat 0xBF60A940#32))
    (subf (mulf ct (splat 0x3F60A940#32))
      (mulf (Host.sqrt (maximumf (subf (splat 0x3F800000#32) (mulf ct ct)) (splat 0x00000000#32))) (splat 0x3EF57744#32)))
    (subf ct (splat 0x3E757744#32))

def rowsFn (m0 m1 l0 l1 t0 t1 : FVec Ideal S512x1 .f32) : FVec Ideal S512x1 .f32 :=
  subf
    (addf (maximumf m0 m1)
      (Host.log
        (addf
          (subf (addf (mulf l0 (Host.exp (subf m0 (maximumf m0 m1)))) (mulf l1 (Host.exp (subf m1 (maximumf m0 m1)))))
            (Host.exp (subf (mulf (splat 0x42800000#32) (addf t0 t1)) (maximumf m0 m1))))
          (Host.exp (subf (mulf (splat 0x42800000#32) (phiFn (addf t0 t1))) (maximumf m0 m1))))))
    (mulf (splat 0x42800000#32) (phiFn (addf t0 t1)))

def tailFn (a3 a4 a5 : FVec Ideal S2x512x1 .f32) : FVec Ideal S_ .f32 :=
  Host.divf
    (Host.reduceAdd (rowsFn (half0 a3) (half1 a3) (half0 a4) (half1 a4) (half0 a5) (half1 a5))
      (constant (F := Ideal) S_ .f32 0x00000000#32) reducesTo_S512x1_S_d0_1 h_S_)
    (constant (F := Ideal) S_ .f32 0x44000000#32)

set_option maxRecDepth 8192 in
theorem tail_eq (Wv : Valuation τ sig (Elt Ideal)) :
    (StableHlo.after (List.flatten [hostOps1 (F := Ideal), hostOps1_1, hostOps1_2]) Wv (Proc.devRef .tc main_v64)
        : S_.Idx → EReal)
      = tailFn (Wv (Proc.devRef .tc main_v10_0)) (Wv (Proc.devRef .tc main_v10_1)) (Wv (Proc.devRef .tc main_v10_2)) := by
  simp only [hostOps1, hostOps1_1, hostOps1_2, List.flatten_cons, List.flatten_nil, List.append_nil, List.cons_append,
    List.nil_append]
  after_results_simp
  rfl

theorem half0_apply (a : FVec Ideal S2x512x1 .f32) (b : Fin 512) : half0 a (ix2 b 0) = a (ix3 0 b 0) := by
  unfold half0
  refine (shapeCast_1ab_ab_apply _ _ b 0).trans ?_
  exact extractStridedSlice_apply _ _ _ _ _ (fun ax => by
    match ax with
    | ⟨0, _⟩ => rfl
    | ⟨1, _⟩ => exact (Nat.zero_add _).symm
    | ⟨2, _⟩ => rfl)

theorem half1_apply (a : FVec Ideal S2x512x1 .f32) (b : Fin 512) : half1 a (ix2 b 0) = a (ix3 1 b 0) := by
  unfold half1
  refine (shapeCast_1ab_ab_apply _ _ b 0).trans ?_
  exact extractStridedSlice_apply _ _ _ _ _ (fun ax => by
    match ax with
    | ⟨0, _⟩ => rfl
    | ⟨1, _⟩ => exact (Nat.zero_add _).symm
    | ⟨2, _⟩ => rfl)

theorem splat_apply (w : BitVec 32) (i : S512x1.Idx) : splat w i = Cert.Spec.lit w := rfl

theorem select_ogt (x y A B : EReal) :
    Scalar.select (FloatOps.cmpf (F := Ideal) (φ := .f32) .ogt x y) A B = if y < x then A else B := by
  show Scalar.select (BitVec.ofBool (decide (y < x))) A B = _
  by_cases h : y < x
  · rw [if_pos h, decide_eq_true h]; exact select_one A B
  · rw [if_neg h, decide_eq_false h]; exact select_zero A B

theorem phiFn_apply (ct : FVec Ideal S512x1 .f32) (i : S512x1.Idx) : phiFn ct i = Cert.Spec.phiKer (ct i) := by
  unfold Cert.Spec.phiKer
  rw [← Ideal.ofBits_zero_f32]
  exact select_ogt (ct i) Cert.Spec.thr _ _

theorem rowsFn_apply (m0 m1 l0 l1 t0 t1 : FVec Ideal S512x1 .f32) (i : S512x1.Idx) :
    rowsFn m0 m1 l0 l1 t0 t1 i = Cert.Spec.tailRow (m0 i) (m1 i) (l0 i) (l1 i) (t0 i) (t1 i) := by
  have e : Cert.Spec.phiKer (t0 i + t1 i) = phiFn (addf t0 t1) i := (phiFn_apply (addf t0 t1) i).symm
  unfold Cert.Spec.tailRow
  dsimp only
  rw [e]
  rfl

theorem tailFn_apply (a3 a4 a5 : FVec Ideal S2x512x1 .f32) (j : S_.Idx) :
    tailFn a3 a4 a5 j = Cert.Spec.meanRows (fun b => Cert.Spec.tailRow (a3 (ix3 0 b 0)) (a3 (ix3 1 b 0))
      (a4 (ix3 0 b 0)) (a4 (ix3 1 b 0)) (a5 (ix3 0 b 0)) (a5 (ix3 1 b 0))) := by
  unfold tailFn Cert.Spec.meanRows
  rw [hostDivf_apply, hostReduceAdd_apply, Ideal.hostReduceAdd_total _ (fun b => b.elim0), sum_idx2]
  simp only [Fin.sum_univ_one, rowsFn_apply, half0_apply, half1_apply]
  rw [constant_apply, constant_apply, Ideal.ofBits_zero_f32]

theorem tail_value (Wv : Valuation τ sig (Elt Ideal)) :
    (StableHlo.after (List.flatten [hostOps1 (F := Ideal), hostOps1_1, hostOps1_2]) Wv (Proc.devRef .tc main_v64)
        : S_.Idx → EReal)
      = fun _ => Cert.Spec.meanRows (fun b => Cert.Spec.tailRow
          ((Wv (Proc.devRef .tc main_v10_0) : S2x512x1.Idx → EReal) (ix3 0 b 0))
          ((Wv (Proc.devRef .tc main_v10_0) : S2x512x1.Idx → EReal) (ix3 1 b 0))
          ((Wv (Proc.devRef .tc main_v10_1) : S2x512x1.Idx → EReal) (ix3 0 b 0))
          ((Wv (Proc.devRef .tc main_v10_1) : S2x512x1.Idx → EReal) (ix3 1 b 0))
          ((Wv (Proc.devRef .tc main_v10_2) : S2x512x1.Idx → EReal) (ix3 0 b 0))
          ((Wv (Proc.devRef .tc main_v10_2) : S2x512x1.Idx → EReal) (ix3 1 b 0))) :=
  (tail_eq Wv).trans (funext fun j => tailFn_apply _ _ _ j)

end Cert.KernelIdeal.Tail

end
-- ==== Proof.KValue.lean ====
import proofs.«402655_j76381698392241_2_alg».proof.Proof.KFrame
import proofs.«402655_j76381698392241_2_alg».proof.Proof.KFinal
import proofs.«402655_j76381698392241_2_alg».proof.Proof.KTail

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (mI : (ℓ : Loc nD τ sig) → Buf (Elt Ideal) ℓ) (ρ : Dev nD → PrngReg)

theorem value_of_exit (c : Dev nD) (L : Fin 512 → Fin 100000) (hL : ∀ b, (mI ((c : Thread nD τ).loc main_arg2) : S512.Idx → BitVec 32) (ix1 b) = BitVec.ofNat 32 (L b).val) (hfin : ∀ i, ∃ r : ℝ, (mI ((c : Thread nD τ).loc main_arg1) : S100000x512.Idx → EReal) i = (r : EReal))
    (Wv : Valuation τ sig (Elt Ideal))
    (e3 : (Wv (Proc.devRef .tc main_v10_0) : S2x512x1.Idx → EReal) = ((dats mI 0 c).arrAt 3 cfg0.N : S2x512x1.Idx → EReal))
    (e4 : (Wv (Proc.devRef .tc main_v10_1) : S2x512x1.Idx → EReal) = ((dats mI 0 c).arrAt 4 cfg0.N : S2x512x1.Idx → EReal))
    (e5 : (Wv (Proc.devRef .tc main_v10_2) : S2x512x1.Idx → EReal) = ((dats mI 0 c).arrAt 5 cfg0.N : S2x512x1.Idx → EReal)) :
    (StableHlo.after (List.flatten [hostOps1 (F := Ideal), hostOps1_1, hostOps1_2]) Wv (Proc.devRef .tc main_v64) : S_.Idx → EReal)
      = fun _ => Cert.Spec.meanRows (fun b => Cert.Spec.rowKer (Cert.Spec.cosS (mI ((c.tc : Thread nD τ).loc main_arg0)) (mI ((c.tc : Thread nD τ).loc main_arg1)) b) (L b)) := by
  refine (Cert.KernelIdeal.Tail.tail_value Wv).trans ?_
  funext _
  refine congrArg Cert.Spec.meanRows (funext fun b => ?_)
  unfold Cert.Spec.rowKer
  rw [e3, e4, e5]
  rw [final_3_apply mI c L hL hfin 0 b, final_3_apply mI c L hL hfin 1 b, final_4_apply mI c L hL hfin 0 b, final_4_apply mI c L hL hfin 1 b,
    final_5_apply mI c L hL hfin 0 b, final_5_apply mI c L hL hfin 1 b]

theorem value_of_post (c : Dev nD) (L : Fin 512 → Fin 100000) (hL : ∀ b, (mI ((c : Thread nD τ).loc main_arg2) : S512.Idx → BitVec 32) (ix1 b) = BitVec.ofNat 32 (L b).val) (hfin : ∀ i, ∃ r : ℝ, (mI ((c : Thread nD τ).loc main_arg1) : S100000x512.Idx → EReal) i = (r : EReal))
    (r : PUnit × MemSt nD τ sig (Elt Ideal)) (h : Pipeline.FramePost cfgs (dats mI) 0 (Pipeline.afterTail₀ cfgs (dats mI) 0 (V0 mI) [hostOps1, hostOps1_1, hostOps1_2]) r) :
    (r.2.mem ((c.tc : Thread nD τ).loc main_v64) : S_.Idx → EReal) = fun _ => Cert.Spec.meanRows (fun b => Cert.Spec.rowKer (Cert.Spec.cosS (mI ((c.tc : Thread nD τ).loc main_arg0)) (mI ((c.tc : Thread nD τ).loc main_arg1)) b) (L b)) := by
  have h64 := (h c).2 main_v64 (Pipeline.mem_restRefs_of main_v64 rfl (by decide))
  unfold Pipeline.afterTail₀ at h64
  exact h64.trans (value_of_exit mI c L hL hfin _
    (Pipeline.withArrays_arr spec0 launch0.win.arr_inj c (V0 mI c) (fun w => (dats mI 0 c).arrAt w cfg0.N) 3)
    (Pipeline.withArrays_arr spec0 launch0.win.arr_inj c (V0 mI c) (fun w => (dats mI 0 c).arrAt w cfg0.N) 4)
    (Pipeline.withArrays_arr spec0 launch0.win.arr_inj c (V0 mI c) (fun w => (dats mI 0 c).arrAt w cfg0.N) 5))

theorem value_run (L : Dev nD → Fin 512 → Fin 100000)
    (hL : ∀ (c : Dev nD) b, (mI ((c : Thread nD τ).loc main_arg2) : S512.Idx → BitVec 32) (ix1 b) = BitVec.ofNat 32 (L c b).val)
    (hfin : ∀ (c : Dev nD) i, ∃ r : ℝ, (mI ((c : Thread nD τ).loc main_arg1) : S100000x512.Idx → EReal) i = (r : EReal)) :
    θ_run defs (onTc (τ := τ) (main (F := Ideal))) ⟨mI, fun _ => 0, ρ⟩ fun r => ∀ c : Dev nD,
      (r.2.mem ((c.tc : Thread nD τ).loc main_v64) : S_.Idx → EReal) = (fun _ => Cert.Spec.meanRows (fun b => Cert.Spec.rowKer (Cert.Spec.cosS (mI ((c.tc : Thread nD τ).loc main_arg0)) (mI ((c.tc : Thread nD τ).loc main_arg1)) b) (L c b)))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2) :=
  (θ_run defs _ _).mono (fun r h c => ⟨value_of_post mI c (L c) (hL c) (hfin c) r h, args_of_post mI (dats mI) (A_eq mI) r h c⟩)
    (run_main mI ρ)

end Cert.KernelIdeal.Hand

end
-- ==== Proof.RefRun.lean ====
import proofs.«402655_j76381698392241_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

abbrev c1 : List (HloOp τ sig (Elt F)) :=
  [ binary main_arg0 main_arg0 main_v0 (mulf : (⟨S512x512, .f32⟩ : BufTy).Contents (Elt F) → (⟨S512x512, .f32⟩ : BufTy).Contents (Elt F) → (⟨S512x512, .f32⟩ : BufTy).Contents (Elt F)),
    nullary main_cst (constant S_ .f32 0x00000000#32),
    binary main_v0 main_cst main_v1 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v1 main_v2 (broadcastInDim S512x1 ![0] bcast_S512_S512x1_0 : (⟨S512, .f32⟩ : BufTy).Contents (Elt F) → (⟨S512x1, .f32⟩ : BufTy).Contents (Elt F)),
    unary main_v2 main_v3 (Host.sqrt : (⟨S512x1, .f32⟩ : BufTy).Contents (Elt F) → (⟨S512x1, .f32⟩ : BufTy).Contents (Elt F)),
    nullary main_cst_0 (constant S_ .f32 0x2B8CBCCC#32),
    unary main_cst_0 main_v4 (broadcastInDim S512x1 ![] bcast_S_S512x1 : (⟨S_, .f32⟩ : BufTy).Contents (Elt F) → (⟨S512x1, .f32⟩ : BufTy).Contents (Elt F)),
    binary main_v3 main_v4 main_v5 (maximumf : (⟨S512x1, .f32⟩ : BufTy).Contents (Elt F) → (⟨S512x1, .f32⟩ : BufTy).Contents (Elt F) → (⟨S512x1, .f32⟩ : BufTy).Contents (Elt F)),
    unary main_v5 main_v6 (broadcastInDim S512x512 ![0, 1] bcast_S512x1_S512x512_0_1 : (⟨S512x1, .f32⟩ : BufTy).Contents (Elt F) → (⟨S512x512, .f32⟩ : BufTy).Contents (Elt F)),
    binary main_arg0 main_v6 main_v7 (Host.divf : (⟨S512x512, .f32⟩ : BufTy).Contents (Elt F) → (⟨S512x512, .f32⟩ : BufTy).Contents (Elt F) → (⟨S512x512, .f32⟩ : BufTy).Contents (Elt F)) ]

abbrev c2 : List (HloOp τ sig (Elt F)) :=
  [ binary main_arg1 main_arg1 main_v8 (mulf : (⟨S100000x512, .f32⟩ : BufTy).Contents (Elt F) → (⟨S100000x512, .f32⟩ : BufTy).Contents (Elt F) → (⟨S100000x512, .f32⟩ : BufTy).Contents (Elt F)),
    nullary main_cst_1 (constant S_ .f32 0x00000000#32),
    binary main_v8 main_cst_1 main_v9 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)),
    unary main_v13 main_v14 (broadcastInDim S100000x512 ![0, 1] bcast_S100000x1_S100000x512_0_1 : (⟨S100000x1, .f32⟩ : BufTy).Contents (Elt F) → (⟨S100000x512, .f32⟩ : BufTy).Contents (Elt F)),
    binary main_arg1 main_v14 main_v15 (Host.divf : (⟨S100000x512, .f32⟩ : BufTy).Contents (Elt F) → (⟨S100000x512, .f32⟩ : BufTy).Contents (Elt F) → (⟨S100000x512, .f32⟩ : BufTy).Contents (Elt F)),
    unary main_v15 main_v16 ((transpose S512x100000 [1, 0] · transposes_S100000x512_S512x100000_1_0) : (⟨S100000x512, .f32⟩ : BufTy).Contents (Elt F) → (⟨S512x100000, .f32⟩ : BufTy).Contents (Elt F)),
    binary main_v7 main_v16 main_v17 ((fun l r => Host.dotGeneral dot_S512x512_S512x100000_S512x100000_1_0_0_1_n_n none l r) : (⟨S512x512, .f32⟩ : BufTy).Contents (Elt F) → (⟨S512x100000, .f32⟩ : BufTy).Contents (Elt F) → (⟨S512x100000, .f32⟩ : BufTy).Contents (Elt F)) ]

abbrev c3 : List (HloOp τ sig (Elt F)) :=
  [ nullary main_cst_3 (constant S_ .f32 0xBF7FFFFE#32),
    nullary main_cst_4 (constant S_ .f32 0x3F7FFFFE#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S512x100000, .f32⟩) main_call0_v1) (broadcastInDim S512x100000 ![] bcast_S_S512x100000),
    TRef.binary (TRef.of (T := ⟨S512x100000, .f32⟩) main_call0_v1) (TRef.of (T := ⟨S512x100000, .f32⟩) main_v17) (TRef.of (T := ⟨S512x100000, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S512x100000, .f32⟩) main_call0_v4) (broadcastInDim S512x100000 ![] bcast_S_S512x100000),
    TRef.binary (TRef.of (T := ⟨S512x100000, .f32⟩) main_call0_v4) (TRef.of (T := ⟨S512x100000, .f32⟩) main_call0_v2) (TRef.of (T := ⟨S512x100000, .f32⟩) main_v18) minimumf ]

abbrev c4 : List (HloOp τ sig (Elt F)) :=
  [ binary main_v18 main_v18 main_v19 (mulf : (⟨S512x100000, .f32⟩ : BufTy).Contents (Elt F) → (⟨S512x100000, .f32⟩ : BufTy).Contents (Elt F) → (⟨S512x100000, .f32⟩ : BufTy).Contents (Elt F)),
    nullary main_cst_5 (constant S_ .f32 0x3F800000#32),
    unary main_cst_5 main_v20 (broadcastInDim S512x100000 ![] bcast_S_S512x100000 : (⟨S_, .f32⟩ : BufTy).Contents (Elt F) → (⟨S512x100000, .f32⟩ : BufTy).Contents (Elt F)),
    binary main_v20 main_v19 main_v21 (subf : (⟨S512x100000, .f32⟩ : BufTy).Contents (Elt F) → (⟨S512x100000, .f32⟩ : BufTy).Contents (Elt F) → (⟨S512x100000, .f32⟩ : BufTy).Contents (Elt F)),
    unary main_v21 main_v22 (Host.sqrt : (⟨S512x100000, .f32⟩ : BufTy).Contents (Elt F) → (⟨S512x100000, .f32⟩ : BufTy).Contents (Elt F)),
    nullary main_cst_6 (constant S_ .f32 0x3F60A940#32),
    unary main_cst_6 main_v23 (broadcastInDim S512x100000 ![] bcast_S_S512x100000 : (⟨S_, .f32⟩ : BufTy).Contents (Elt F) → (⟨S512x100000, .f32⟩ : BufTy).Contents (Elt F)),
    binary main_v18 main_v23 main_v24 (mulf : (⟨S512x100000, .f32⟩ : BufTy).Contents (Elt F) → (⟨S512x100000, .f32⟩ : BufTy).Contents (Elt F) → (⟨S512x100000, .f32⟩ : BufTy).Contents (Elt F)),
    nullary main_cst_7 (constant S_ .f32 0x3EF57744#32),
    unary main_cst_7 main_v25 (broadcastInDim S512x100000 ![] bcast_S_S512x100000 : (⟨S_, .f32⟩ : BufTy).Contents (Elt F) → (⟨S512x100000, .f32⟩ : BufTy).Contents (Elt F)),
    binary main_v22 main_v25 main_v26 (mulf : (⟨S512x100000, .f32⟩ : BufTy).Contents (Elt F) → (⟨S512x100000, .f32⟩ : BufTy).Contents (Elt F) → (⟨S512x100000, .f32⟩ : BufTy).Contents (Elt F)),
    binary main_v24 main_v26 main_v27 (subf : (⟨S512x100000, .f32⟩ : BufTy).Contents (Elt F) → (⟨S512x100000, .f32⟩ : BufTy).Contents (Elt F) → (⟨S512x100000, .f32⟩ : BufTy).Contents (Elt F)) ]

abbrev c5 : List (HloOp τ sig (Elt F)) :=
  [ nullary main_cst_8 (constant S_ .f32 0xBF60A940#32),
    unary main_cst_8 main_v28 (broadcastInDim S512x100000 ![] bcast_S_S512x100000 : (⟨S_, .f32⟩ : BufTy).Contents (Elt F) → (⟨S512x100000, .f32⟩ : BufTy).Contents (Elt F)),
    binary main_v18 main_v28 main_v29 (cmpf .ogt : (⟨S512x100000, .f32⟩ : BufTy).Contents (Elt F) → (⟨S512x100000, .f32⟩ : BufTy).Contents (Elt F) → (⟨S512x100000, .i1⟩ : BufTy).Contents (Elt F)),
    nullary main_cst_9 (constant S_ .f32 0x3E757744#32),
    unary main_cst_9 main_v30 (broadcastInDim S512x100000 ![] bcast_S_S512x100000 : (⟨S_, .f32⟩ : BufTy).Contents (Elt F) → (⟨S512x100000, .f32⟩ : BufTy).Contents (Elt F)),
    binary main_v18 main_v30 main_v31 (subf : (⟨S512x100000, .f32⟩ : BufTy).Contents (Elt F) → (⟨S512x100000, .f32⟩ : BufTy).Contents (Elt F) → (⟨S512x100000, .f32⟩ : BufTy).Contents (Elt F)),
    TRef.ternary (TRef.of (T := ⟨S512x100000, .i1⟩) main_v29) (TRef.of (T := ⟨S512x100000, .f32⟩) main_v27) (TRef.of (T := ⟨S512x100000, .f32⟩) main_v31) (TRef.of (T := ⟨S512x100000, .f32⟩) main_v32) select ]

abbrev c6 : List (HloOp τ sig (Elt F)) :=
  [ TRef.unary (TRef.of (T := ⟨S512, .i32⟩) main_arg2) (TRef.of (T := ⟨S512x1, .i32⟩) main_call2_v0) (broadcastInDim S512x1 ![0] bcast_S512_S512x1_0),
    TRef.nullary (TRef.of (T := ⟨S1x100000, .i32⟩) main_call2_v1) (iotaInDim S1x100000 32 1),
    TRef.unary (TRef.of (T := ⟨S512x1, .i32⟩) main_call2_v0) (TRef.of (T := ⟨S512x100000, .i32⟩) main_call2_v2) (broadcastInDim S512x100000 ![0, 1] bcast_S512x1_S512x100000_0_1),
    TRef.unary (TRef.of (T := ⟨S1x100000, .i32⟩) main_call2_v1) (TRef.of (T := ⟨S512x100000, .i32⟩) main_call2_v3) (broadcastInDim S512x100000 ![0, 1] bcast_S1x100000_S512x100000_0_1),
    TRef.binary (TRef.of (T := ⟨S512x100000, .i32⟩) main_call2_v2) (TRef.of (T := ⟨S512x100000, .i32⟩) main_call2_v3) (TRef.of (T := ⟨S512x100000, .i1⟩) main_call2_v4) (cmpi .eq),
    TRef.unary (TRef.of (T := ⟨S512x100000, .i1⟩) main_call2_v4) (TRef.of (T := ⟨S512x100000, .f32⟩) main_v33) (uitofp .f32),
    binary main_v33 main_v32 main_v34 (mulf : (⟨S512x100000, .f32⟩ : BufTy).Contents (Elt F) → (⟨S512x100000, .f32⟩ : BufTy).Contents (Elt F) → (⟨S512x100000, .f32⟩ : BufTy).Contents (Elt F)),
    nullary main_cst_10 (constant S_ .f32 0x3F800000#32),
    unary main_cst_10 main_v35 (broadcastInDim S512x100000 ![] bcast_S_S512x100000 : (⟨S_, .f32⟩ : BufTy).Contents (Elt F) → (⟨S512x100000, .f32⟩ : BufTy).Contents (Elt F)),
    binary main_v35 main_v33 main_v36 (subf : (⟨S512x100000, .f32⟩ : BufTy).Contents (Elt F) → (⟨S512x100000, .f32⟩ : BufTy).Contents (Elt F) → (⟨S512x100000, .f32⟩ : BufTy).Contents (Elt F)),
    binary main_v36 main_v18 main_v37 (mulf : (⟨S512x100000, .f32⟩ : BufTy).Contents (Elt F) → (⟨S512x100000, .f32⟩ : BufTy).Contents (Elt F) → (⟨S512x100000, .f32⟩ : BufTy).Contents (Elt F)),
    binary main_v34 main_v37 main_v38 (addf : (⟨S512x100000, .f32⟩ : BufTy).Contents (Elt F) → (⟨S512x100000, .f32⟩ : BufTy).Contents (Elt F) → (⟨S512x100000, .f32⟩ : BufTy).Contents (Elt F)) ]

abbrev c7a : List (HloOp τ sig (Elt F)) :=
  [ nullary main_cst_11 (constant S_ .f32 0x42800000#32),
    unary main_cst_11 main_v39 (broadcastInDim S512x100000 ![] bcast_S_S512x100000 : (⟨S_, .f32⟩ : BufTy).Contents (Elt F) → (⟨S512x100000, .f32⟩ : BufTy).Contents (Elt F)),
    binary main_v38 main_v39 main_v40 (mulf : (⟨S512x100000, .f32⟩ : BufTy).Contents (Elt F) → (⟨S512x100000, .f32⟩ : BufTy).Contents (Elt F) → (⟨S512x100000, .f32⟩ : BufTy).Contents (Elt F)),
    TRef.nullary (TRef.of (T := ⟨S_, .f32⟩) main_call3_cst) (constant S_ .f32 0xFF800000#32),
    TRef.binary (TRef.of (T := ⟨S512x100000, .f32⟩) main_v40) (TRef.of (T := ⟨S_, .f32⟩) main_call3_cst) (TRef.of (T := ⟨S512, .f32⟩) main_call3_v0) (fun x v => Host.reduce FloatOps.maximumf x v reducesTo_S512x100000_S512_d1 h_S_) ]

abbrev c7b : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S512, .f32⟩) main_call3_v1) (broadcastInDim S512 ![] bcast_S_S512),
    TRef.binary (TRef.of (T := ⟨S512, .f32⟩) main_call3_v1) (TRef.of (T := ⟨S512, .f32⟩) main_call3_v0) (TRef.of (T := ⟨S512, .f32⟩) main_call3_v2) maximumf,
    TRef.unary (TRef.of (T := ⟨S512, .f32⟩) main_call3_v2) (TRef.of (T := ⟨S512x1, .f32⟩) main_call3_v3) (broadcastInDim S512x1 ![0] bcast_S512_S512x1_0),
    TRef.unary (TRef.of (T := ⟨S512x1, .f32⟩) main_call3_v3) (TRef.of (T := ⟨S512x100000, .f32⟩) main_call3_v4) (broadcastInDim S512x100000 ![0, 1] bcast_S512x1_S512x100000_0_1),
    TRef.binary (TRef.of (T := ⟨S512x100000, .f32⟩) main_v40) (TRef.of (T := ⟨S512x100000, .f32⟩) main_call3_v4) (TRef.of (T := ⟨S512x100000, .f32⟩) main_call3_v5) subf ]

abbrev c8 : List (HloOp τ sig (Elt F)) :=
  [ TRef.unary (TRef.of (T := ⟨S512x100000, .f32⟩) main_call3_v5) (TRef.of (T := ⟨S512x100000, .f32⟩) main_call3_v6) Host.exp,
    TRef.nullary (TRef.of (T := ⟨S_, .f32⟩) main_call3_cst_1) (constant S_ .f32 0x00000000#32),
    TRef.binary (TRef.of (T := ⟨S512x100000, .f32⟩) main_call3_v6) (TRef.of (T := ⟨S_, .f32⟩) main_call3_cst_1) (TRef.of (T := ⟨S512, .f32⟩) main_call3_v7) (fun x v => Host.reduceAdd x v reducesTo_S512x100000_S512_d1 h_S_),
    TRef.unary (TRef.of (T := ⟨S512, .f32⟩) main_call3_v7) (TRef.of (T := ⟨S512x1, .f32⟩) main_call3_v8) (broadcastInDim S512x1 ![0] bcast_S512_S512x1_0),
    TRef.unary (TRef.of (T := ⟨S512x1, .f32⟩) main_call3_v8) (TRef.of (T := ⟨S512x1, .f32⟩) main_call3_v9) Host.log,
    TRef.unary (TRef.of (T := ⟨S512x1, .f32⟩) main_call3_v9) (TRef.of (T := ⟨S512x100000, .f32⟩) main_call3_v10) (broadcastInDim S512x100000 ![0, 1] bcast_S512x1_S512x100000_0_1),
    TRef.binary (TRef.of (T := ⟨S512x100000, .f32⟩) main_call3_v5) (TRef.of (T := ⟨S512x100000, .f32⟩) main_call3_v10) (TRef.of (T := ⟨S512x100000, .f32⟩) main_v41) subf ]

abbrev c9 : List (HloOp τ sig (Elt F)) :=
  [ unary main_arg2 main_v42 (broadcastInDim S512x1 ![0] bcast_S512_S512x1_0 : (⟨S512, .i32⟩ : BufTy).Contents (Elt F) → (⟨S512x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S512x1, .i32⟩) main_call4_v0) (broadcastInDim S512x1 ![] bcast_S_S512x1),
    TRef.binary (TRef.of (T := ⟨S512x1, .i32⟩) main_v42) (TRef.of (T := ⟨S512x1, .i32⟩) main_call4_v0) (TRef.of (T := ⟨S512x1, .i1⟩) main_call4_v1) (cmpi .slt),
    TRef.nullary (TRef.of (T := ⟨S_, .i32⟩) main_call4_c_0) (constantI S_ 32 100000#32),
    TRef.unary (TRef.of (T := ⟨S_, .i32⟩) main_call4_c_0) (TRef.of (T := ⟨S512x1, .i32⟩) main_call4_v2) (broadcastInDim S512x1 ![] bcast_S_S512x1),
    TRef.binary (TRef.of (T := ⟨S512x1, .i32⟩) main_v42) (TRef.of (T := ⟨S512x1, .i32⟩) main_call4_v2) (TRef.of (T := ⟨S512x1, .i32⟩) main_call4_v3) addi,
    TRef.ternary (TRef.of (T := ⟨S512x1, .i1⟩) main_call4_v1) (TRef.of (T := ⟨S512x1, .i32⟩) main_call4_v3) (TRef.of (T := ⟨S512x1, .i32⟩) main_v42) (TRef.of (T := ⟨S512x1, .i32⟩) main_call4_v4) select,
    TRef.reshape (TRef.of (T := ⟨S512x1, .i32⟩) main_call4_v4) (TRef.of (T := ⟨S512x1x1, .i32⟩) main_call4_v5) rfl shapeCasts_S512x1_S512x1x1 ]

abbrev c10 : List (HloOp τ sig (Elt F)) :=
  [ TRef.nullary (TRef.of (T := ⟨S1, .i32⟩) main_call4_c_1) (constantI S1 32 99999#32),
    TRef.nullary (TRef.of (T := ⟨S_, .i32⟩) main_call4_c_2) (constantI S_ 32 0#32),
    TRef.unary (TRef.of (T := ⟨S_, .i32⟩) main_call4_c_2) (TRef.of (T := ⟨S512x1x1, .i32⟩) main_call4_v6) (broadcastInDim S512x1x1 ![] bcast_S_S512x1x1),
    TRef.binary (TRef.of (T := ⟨S512x1x1, .i32⟩) main_call4_v5) (TRef.of (T := ⟨S512x1x1, .i32⟩) main_call4_v6) (TRef.of (T := ⟨S512x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S512x1x1, .i32⟩) main_call4_v9) (broadcastInDim S512x1x1 ![0, 1, 2] bcast_S1x1x1_S512x1x1_0_1_2),
    TRef.binary (TRef.of (T := ⟨S512x1x1, .i32⟩) main_call4_v5) (TRef.of (T := ⟨S512x1x1, .i32⟩) main_call4_v9) (TRef.of (T := ⟨S512x1x1, .i1⟩) main_call4_v10) (cmpi .sle),
    TRef.binary (TRef.of (T := ⟨S512x1x1, .i1⟩) main_call4_v7) (TRef.of (T := ⟨S512x1x1, .i1⟩) main_call4_v10) (TRef.of (T := ⟨S512x1x1, .i1⟩) main_call4_v11) andi,
    TRef.nullary (TRef.of (T := ⟨S_, .i1⟩) main_call4_c_3) (constantI S_ 1 1#1),
    TRef.binary (TRef.of (T := ⟨S512x1x1, .i1⟩) main_call4_v11) (TRef.of (T := ⟨S_, .i1⟩) main_call4_c_3) (TRef.of (T := ⟨S512x1, .i1⟩) main_call4_v12) (fun x v => Host.reduce IntOp.andi x v reducesTo_S512x1x1_S512x1_d2 h_S_),
    TRef.binary (TRef.of (T := ⟨S512x100000, .f32⟩) main_v41) (TRef.of (T := ⟨S512x1x1, .i32⟩) main_call4_v5) (TRef.of (T := ⟨S512x1, .f32⟩) main_call4_v13) (fun x i => Host.gather gather_S512x100000_S512x1x1_S512x1_n_1_0_0_1_2_11 x i) ]

abbrev c11 : List (HloOp τ sig (Elt F)) :=
  [ TRef.nullary (TRef.of (T := ⟨S_, .f32⟩) main_call4_cst) (constant S_ .f32 0x7FC00000#32),
    TRef.unary (TRef.of (T := ⟨S_, .f32⟩) main_call4_cst) (TRef.of (T := ⟨S512x1, .f32⟩) main_call4_v14) (broadcastInDim S512x1 ![] bcast_S_S512x1),
    TRef.ternary (TRef.of (T := ⟨S512x1, .i1⟩) main_call4_v12) (TRef.of (T := ⟨S512x1, .f32⟩) main_call4_v13) (TRef.of (T := ⟨S512x1, .f32⟩) main_call4_v14) (TRef.of (T := ⟨S512x1, .f32⟩) main_v43) select,
    reshape main_v43 main_v44 rfl shapeCasts_S512x1_S512,
    unary main_v44 main_v45 (Host.negf : (⟨S512, .f32⟩ : BufTy).Contents (Elt F) → (⟨S512, .f32⟩ : BufTy).Contents (Elt F)),
    nullary main_cst_12 (constant S_ .f32 0x00000000#32),
    binary main_v45 main_cst_12 main_v46 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_13 (constant S_ .f32 0x44000000#32),
    binary main_v46 main_cst_13 main_v47 (Host.divf : (⟨S_, .f32⟩ : BufTy).Contents (Elt F) → (⟨S_, .f32⟩ : BufTy).Contents (Elt F) → (⟨S_, .f32⟩ : BufTy).Contents (Elt F)) ]

abbrev ops : List (HloOp τ sig (Elt F)) := c1 ++ c2 ++ c3 ++ c4 ++ c5 ++ c6 ++ c7a ++ c7b ++ c8 ++ c9 ++ c10 ++ c11

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem c1_sub : (c1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem c2_sub : (c2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub ..⟩
theorem c3_sub : (c3 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩
theorem c4_sub : (c4 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩
theorem c5_sub : (c5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem c6_sub : (c6 : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub .., nullary_bufs_sub .., unary_bufs_sub .., binary_bufs_sub .., binary_bufs_sub .., binary_bufs_sub ..⟩
theorem c7a_sub : (c7a : List (HloOp τ sig (Elt F))).Forall fun op => op.bufs ⊆ tcRefs τ sig :=
  ⟨nullary_bufs_sub .., unary_bufs_sub .., binary_bufs_sub .., nullary_bufs_sub .., binary_bufs_sub ..⟩
theorem c7b_sub : (c7b : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem c8_sub : (c8 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩
theorem c9_sub : (c9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub ..⟩
theorem c10_sub : (c10 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
theorem c11_sub : (c11 : List (HloOp τ sig (Elt F))).Forall fun op => op.bufs ⊆ tcRefs τ sig :=
  ⟨nullary_bufs_sub .., unary_bufs_sub .., ternary_bufs_sub .., reshape_bufs_sub .., unary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2
    ⟨List.forall_append.2 ⟨List.forall_append.2 ⟨List.forall_append.2 ⟨List.forall_append.2 ⟨List.forall_append.2 ⟨c1_sub, c2_sub⟩,
      c3_sub⟩, c4_sub⟩, c5_sub⟩, c6_sub⟩, c7a_sub⟩, c7b_sub⟩, c8_sub⟩, c9_sub⟩, c10_sub⟩, c11_sub⟩

structure ArgsAt (W : Valuation τ sig (Elt F)) (x0 : (⟨S512x512, .f32⟩ : BufTy).Contents (Elt F)) (x1 : (⟨S100000x512, .f32⟩ : BufTy).Contents (Elt F)) (x2 : (⟨S512, .i32⟩ : BufTy).Contents (Elt F)) : Prop where
  a0 : W (Proc.devRef .tc main_arg0) = x0
  a1 : W (Proc.devRef .tc main_arg1) = x1
  a2 : W (Proc.devRef .tc main_arg2) = x2

structure KeepsArgs (c : List (HloOp τ sig (Elt F))) : Prop where
  k0 : ∀ W : Valuation τ sig (Elt F), after c W (Proc.devRef .tc main_arg0) = W (Proc.devRef .tc main_arg0)
  k1 : ∀ W : Valuation τ sig (Elt F), after c W (Proc.devRef .tc main_arg1) = W (Proc.devRef .tc main_arg1)
  k2 : ∀ W : Valuation τ sig (Elt F), after c W (Proc.devRef .tc main_arg2) = W (Proc.devRef .tc main_arg2)

variable {W : Valuation τ sig (Elt F)} {x0 : (⟨S512x512, .f32⟩ : BufTy).Contents (Elt F)} {x1 : (⟨S100000x512, .f32⟩ : BufTy).Contents (Elt F)} {x2 : (⟨S512, .i32⟩ : BufTy).Contents (Elt F)}

theorem ArgsAt.after {c : List (HloOp τ sig (Elt F))} (hc : KeepsArgs c) (hA : ArgsAt W x0 x1 x2) :
    ArgsAt (after c W) x0 x1 x2 :=
  ⟨(hc.k0 W).trans hA.a0, (hc.k1 W).trans hA.a1, (hc.k2 W).trans hA.a2⟩

theorem keeps_c1 : KeepsArgs (F := F) c1 := ⟨fun W => by after_results, fun W => by after_results, fun W => by after_results⟩
theorem keeps_c2 : KeepsArgs (F := F) c2 := ⟨fun W => by after_results, fun W => by after_results, fun W => by after_results⟩
theorem keeps_c3 : KeepsArgs (F := F) c3 := ⟨fun W => by after_results, fun W => by after_results, fun W => by after_results⟩
theorem keeps_c4 : KeepsArgs (F := F) c4 := ⟨fun W => by after_results, fun W => by after_results, fun W => by after_results⟩
theorem keeps_c5 : KeepsArgs (F := F) c5 := ⟨fun W => by after_results, fun W => by after_results, fun W => by after_results⟩
theorem keeps_c6 : KeepsArgs (F := F) c6 := ⟨fun W => by after_results, fun W => by after_results, fun W => by after_results⟩
theorem keeps_c7a : KeepsArgs (F := F) c7a := ⟨fun W => by after_results, fun W => by after_results, fun W => by after_results⟩
theorem keeps_c7b : KeepsArgs (F := F) c7b := ⟨fun W => by after_results, fun W => by after_results, fun W => by after_results⟩
theorem keeps_c8 : KeepsArgs (F := F) c8 := ⟨fun W => by after_results, fun W => by after_results, fun W => by after_results⟩
theorem keeps_c9 : KeepsArgs (F := F) c9 := ⟨fun W => by after_results, fun W => by after_results, fun W => by after_results⟩
theorem keeps_c10 : KeepsArgs (F := F) c10 := ⟨fun W => by after_results, fun W => by after_results, fun W => by after_results⟩
theorem keeps_c11 : KeepsArgs (F := F) c11 := ⟨fun W => by after_results, fun W => by after_results, fun W => by after_results⟩

theorem step1 (hA : ArgsAt W x0 x1 x2) :
    after c1 W (Proc.devRef .tc main_v7) = val_main_v7 (F := F) x0 := by
  after_results
  rw [hA.a0]
  rfl

theorem step2 (hA : ArgsAt W x0 x1 x2) (h7 : W (Proc.devRef .tc main_v7) = val_main_v7 (F := F) x0) :
    after c2 W (Proc.devRef .tc main_v17) = val_main_v17 (F := F) x0 x1 := by
  after_results
  rw [hA.a1, h7]
  rfl

theorem step3 (h17 : W (Proc.devRef .tc main_v17) = val_main_v17 (F := F) x0 x1) :
    after c3 W (Proc.devRef .tc main_v18) = val_main_v18 (F := F) x0 x1 := by
  after_results
  simp only [TRef.ofBuf, TRef.toBuf, cast_eq]
  rw [h17]
  rfl

theorem step4 (h18 : W (Proc.devRef .tc main_v18) = val_main_v18 (F := F) x0 x1) :
    after c4 W (Proc.devRef .tc main_v27) = val_main_v27 (F := F) x0 x1
    ∧ after c4 W (Proc.devRef .tc main_v18) = val_main_v18 (F := F) x0 x1 := by
  constructor
  · after_results
    rw [h18]
    rfl
  · after_results
    exact h18

theorem step5 (h18 : W (Proc.devRef .tc main_v18) = val_main_v18 (F := F) x0 x1)
    (h27 : W (Proc.devRef .tc main_v27) = val_main_v27 (F := F) x0 x1) :
    after c5 W (Proc.devRef .tc main_v32) = val_main_v32 (F := F) x0 x1
    ∧ after c5 W (Proc.devRef .tc main_v18) = val_main_v18 (F := F) x0 x1 := by
  constructor
  · after_results
    simp only [TRef.ofBuf, TRef.toBuf, cast_eq]
    rw [h18, h27]
    rfl
  · after_results
    exact h18

theorem step6 (hA : ArgsAt W x0 x1 x2) (h18 : W (Proc.devRef .tc main_v18) = val_main_v18 (F := F) x0 x1)
    (h32 : W (Proc.devRef .tc main_v32) = val_main_v32 (F := F) x0 x1) :
    after c6 W (Proc.devRef .tc main_v38) = val_main_v38 (F := F) x0 x1 x2 := by
  after_results
  simp only [TRef.ofBuf, TRef.toBuf, cast_eq]
  rw [hA.a2, h32, h18]
  rfl

theorem step7a (h38 : W (Proc.devRef .tc main_v38) = val_main_v38 (F := F) x0 x1 x2) :
    after c7a W (Proc.devRef .tc main_v40) = val_main_v40 (F := F) x0 x1 x2
    ∧ after c7a W (Proc.devRef .tc main_call3_v0) = val_main_call3_v0 (F := F) x0 x1 x2 := by
  constructor
  · after_results
    rw [h38]
    rfl
  · after_results
    simp only [TRef.ofBuf, TRef.toBuf, cast_eq]
    rw [h38]
    rfl

theorem step7b (h40 : W (Proc.devRef .tc main_v40) = val_main_v40 (F := F) x0 x1 x2)
    (h0 : W (Proc.devRef .tc main_call3_v0) = val_main_call3_v0 (F := F) x0 x1 x2) :
    after c7b W (Proc.devRef .tc main_call3_v5) = val_main_call3_v5 (F := F) x0 x1 x2 := by
  after_results
  simp only [TRef.ofBuf, TRef.toBuf, cast_eq]
  rw [h40, h0]
  rfl

theorem step8 (h5 : W (Proc.devRef .tc main_call3_v5) = val_main_call3_v5 (F := F) x0 x1 x2) :
    after c8 W (Proc.devRef .tc main_v41) = val_main_v41 (F := F) x0 x1 x2 := by
  after_results
  simp only [TRef.ofBuf, TRef.toBuf, cast_eq]
  rw [h5]
  rfl

theorem step9 (hA : ArgsAt W x0 x1 x2) (h41 : W (Proc.devRef .tc main_v41) = val_main_v41 (F := F) x0 x1 x2) :
    after c9 W (Proc.devRef .tc main_call4_v5) = val_main_call4_v5 (F := F) x2
    ∧ after c9 W (Proc.devRef .tc main_v41) = val_main_v41 (F := F) x0 x1 x2 := by
  constructor
  · after_results
    simp only [TRef.ofBuf, TRef.toBuf, cast_eq]
    rw [hA.a2]
    rfl
  · after_results
    exact h41

theorem step10 (h41 : W (Proc.devRef .tc main_v41) = val_main_v41 (F := F) x0 x1 x2)
    (hi : W (Proc.devRef .tc main_call4_v5) = val_main_call4_v5 (F := F) x2) :
    after c10 W (Proc.devRef .tc main_call4_v12) = val_main_call4_v12 (F := F) x2
    ∧ after c10 W (Proc.devRef .tc main_call4_v13) = val_main_call4_v13 (F := F) x0 x1 x2 := by
  constructor
  · after_results
    simp only [TRef.ofBuf, TRef.toBuf, cast_eq]
    rw [hi]
    rfl
  · after_results
    simp only [TRef.ofBuf, TRef.toBuf, cast_eq]
    rw [h41, hi]
    rfl

theorem step11 (h12 : W (Proc.devRef .tc main_call4_v12) = val_main_call4_v12 (F := F) x2)
    (h13 : W (Proc.devRef .tc main_call4_v13) = val_main_call4_v13 (F := F) x0 x1 x2) :
    after c11 W (Proc.devRef .tc main_v47) = val_main_v47 (F := F) x0 x1 x2 := by
  after_results
  simp only [TRef.ofBuf, TRef.toBuf, cast_eq]
  rw [h12, h13]
  rfl

theorem chain (V : Valuation τ sig (Elt F)) (x0 : (⟨S512x512, .f32⟩ : BufTy).Contents (Elt F)) (x1 : (⟨S100000x512, .f32⟩ : BufTy).Contents (Elt F)) (x2 : (⟨S512, .i32⟩ : BufTy).Contents (Elt F)) (hA : ArgsAt V x0 x1 x2) :
    after ops V (Proc.devRef .tc main_v47) = val_main_v47 (F := F) x0 x1 x2 ∧ ArgsAt (after ops V) x0 x1 x2 := by
  have a1 := hA.after keeps_c1
  have s1 := step1 hA
  have a2 := a1.after keeps_c2
  have s2 := step2 a1 s1
  have a3 := a2.after keeps_c3
  have s3 := step3 s2
  have a4 := a3.after keeps_c4
  have s4 := step4 s3
  have a5 := a4.after keeps_c5
  have s5 := step5 s4.2 s4.1
  have a6 := a5.after keeps_c6
  have s6 := step6 a5 s5.2 s5.1
  have a7a := a6.after keeps_c7a
  have s7a := step7a s6
  have a7b := a7a.after keeps_c7b
  have s7b := step7b s7a.1 s7a.2
  have a8 := a7b.after keeps_c8
  have s8 := step8 s7b
  have a9 := a8.after keeps_c9
  have s9 := step9 a8 s8
  have a10 := a9.after keeps_c10
  have s10 := step10 s9.2 s9.1
  have a11 := a10.after keeps_c11
  have s11 := step11 s10.1 s10.2
  simp only [ops, after_append]
  exact ⟨s11, a11⟩

set_option maxRecDepth 8192 in
set_option maxHeartbeats 4000000 in
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = Cert.ReferenceIdeal.ReadP.val_main_v47 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      have k := chain (launchContents m c) (m ((c.tc : Thread nD τ).loc main_arg0)) (m ((c.tc : Thread nD τ).loc main_arg1))
        (m ((c.tc : Thread nD τ).loc main_arg2)) ⟨rfl, rfl, rfl⟩
      ⟨(h c main_v47).trans k.1, (h c main_arg0).trans k.2.a0, (h c main_arg1).trans k.2.a1, (h c main_arg2).trans k.2.a2⟩)
    (run_seq scopedRefs_eq scopedSems_eq defs main (fun _ => ops) main_eq (fun _ => ops_sub) m ρ)

end Cert.ReferenceIdeal.RefRun

end
-- ==== Proof.RefValue.lean ====
import proofs.«402655_j76381698392241_2_alg».proof.Proof.RefReadP
import proofs.«402655_j76381698392241_2_alg».proof.Proof.Spec
import proofs.«402655_j76381698392241_2_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.ValueIdxRank1
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx

theorem idx_row_x (b k k' : Fin 512) :
    idx_main_v1 (idx_main_v2 (idx_main_v6 (ix2 b k))) k' = ix2 b k' :=
  funext fun a => Fin.ext (by match a with | ⟨0, _⟩ => rfl | ⟨1, _⟩ => rfl)

theorem idx_row_w (c : Fin 100000) (k k' : Fin 512) :
    idx_main_v9 (idx_main_v10 (idx_main_v14 (ix2 c k))) k' = ix2 c k' :=
  funext fun a => Fin.ext (by match a with | ⟨0, _⟩ => rfl | ⟨1, _⟩ => rfl)

theorem v7_at (x : FVec Ideal S512x512 .f32) (b k : Fin 512) :
    val_main_v7 (F := Ideal) x (ix2 b k) = Cert.Spec.eN x b k := by
  rw [val_main_v7_apply, val_main_v6_apply, val_main_v5_apply, val_main_v3_apply, val_main_v2_apply,
    val_main_v1_apply, val_main_v4_apply, val_main_cst_0_apply, val_main_cst_apply]
  simp only [val_main_v0_apply, idx_row_x, Ideal.hostDivf_def, Ideal.maximumf_def, Ideal.hostUnary_sqrt_def,
    Ideal.mulf_def, Ideal.ofBits_def]
  rw [show Ideal.ofBits .f32 0x00000000#32 = (0 : EReal) from Cert.Consts.lit_zero]
  rfl

theorem v15_at (w : FVec Ideal S100000x512 .f32) (c : Fin 100000) (k : Fin 512) :
    val_main_v15 (F := Ideal) w (ix2 c k) = Cert.Spec.wN w c k := by
  rw [val_main_v15_apply, val_main_v14_apply, val_main_v13_apply, val_main_v11_apply, val_main_v10_apply,
    val_main_v9_apply, val_main_v12_apply, val_main_cst_2_apply, val_main_cst_1_apply]
  simp only [val_main_v8_apply, idx_row_w, Ideal.hostDivf_def, Ideal.maximumf_def, Ideal.hostUnary_sqrt_def,
    Ideal.mulf_def, Ideal.ofBits_def]
  rw [show Ideal.ofBits .f32 0x00000000#32 = (0 : EReal) from Cert.Consts.lit_zero]
  rfl

theorem lidx_at (b : Fin 512) (c : Fin 100000) (k : Fin 512) :
    lidx_main_v17 (ix2 b c) k = ix2 b k :=
  funext fun a => Fin.ext (by match a with | ⟨0, _⟩ => rfl | ⟨1, _⟩ => rfl)

theorem ridx_at (b : Fin 512) (c : Fin 100000) (k : Fin 512) :
    idx_main_v16 (ridx_main_v17 (ix2 b c) k) = ix2 c k :=
  funext fun a => Fin.ext (by match a with | ⟨0, _⟩ => rfl | ⟨1, _⟩ => rfl)

theorem v18_at (x : FVec Ideal S512x512 .f32) (w : FVec Ideal S100000x512 .f32) (b : Fin 512) (c : Fin 100000) :
    val_main_v18 (F := Ideal) x w (ix2 b c) = Cert.Spec.cosS x w b c := by
  rw [val_main_v18_apply, val_main_call0_v4_apply, val_main_call0_v3_apply, val_main_cst_4_apply,
    val_main_call0_v2_apply, val_main_call0_v1_apply, val_main_call0_v0_apply, val_main_cst_3_apply,
    val_main_v17_apply]
  simp only [val_main_v16_apply, lidx_at, ridx_at, v7_at, v15_at, Ideal.minimumf_def, Ideal.maximumf_def,
    Ideal.ofBits_def]
  rfl

theorem select_ogt {α : Type} (a t : Ideal .f32) (A B : α) :
    Scalar.select (FloatOps.cmpf (F := Ideal) .ogt a t) A B = if t < a then A else B := by
  show Scalar.select (BitVec.ofBool (decide (t < a))) A B = _
  by_cases h : t < a
  · rw [decide_eq_true h, if_pos h]; exact select_one A B
  · rw [decide_eq_false h, if_neg h]; exact select_zero A B

theorem v32_at (x : FVec Ideal S512x512 .f32) (w : FVec Ideal S100000x512 .f32) (b : Fin 512) (c : Fin 100000) :
    val_main_v32 (F := Ideal) x w (ix2 b c) = Cert.Spec.phiRef (Cert.Spec.cosS x w b c) := by
  rw [val_main_v32_apply, val_main_v29_apply, val_main_v28_apply, val_main_cst_8_apply,
    val_main_v27_apply, val_main_v24_apply, val_main_v23_apply, val_main_cst_6_apply,
    val_main_v26_apply, val_main_v22_apply, val_main_v21_apply, val_main_v20_apply, val_main_cst_5_apply,
    val_main_v19_apply, val_main_v25_apply, val_main_cst_7_apply,
    val_main_v31_apply, val_main_v30_apply, val_main_cst_9_apply]
  simp only [v18_at, Ideal.subf_def, Ideal.mulf_def, Ideal.hostUnary_sqrt_def, Ideal.ofBits_def]
  unfold Cert.Spec.phiRef
  exact select_ogt _ _ _ _

theorem uitofp_one : FloatOps.uitofp (F := Ideal) .f32 (1#1 : BitVec 1) = (1 : EReal) := by
  show ((((1#1 : BitVec 1).toNat : ℝ)) : EReal) = 1
  norm_num

theorem uitofp_zero : FloatOps.uitofp (F := Ideal) .f32 (0#1 : BitVec 1) = (0 : EReal) := by
  show ((((0#1 : BitVec 1).toNat : ℝ)) : EReal) = 0
  norm_num

theorem word_eq_iff (l c : Fin 100000) : BitVec.ofNat 32 l.val = BitVec.ofNat 32 c.val ↔ c = l := by
  constructor
  · intro h
    have h' := congrArg BitVec.toNat h
    simp only [BitVec.toNat_ofNat] at h'
    have h1 := l.isLt
    have h2 := c.isLt
    rw [Nat.mod_eq_of_lt (by omega), Nat.mod_eq_of_lt (by omega)] at h'
    exact Fin.ext h'.symm
  · rintro rfl; rfl

theorem v33_at (lab : IVec S512 32) (L : Fin 512 → Fin 100000)
    (hL : ∀ b, lab (ix1 b) = BitVec.ofNat 32 (L b).val) (b : Fin 512) (c : Fin 100000) :
    val_main_v33 (F := Ideal) lab (ix2 b c) = if c = L b then (1 : EReal) else 0 := by
  rw [val_main_v33_apply, val_main_call2_v4_apply, val_main_call2_v2_apply, val_main_call2_v0_apply,
    val_main_call2_v3_apply, val_main_call2_v1_apply]
  have e1 : idx_main_call2_v0 (idx_main_call2_v2 (ix2 b c)) = ix1 b :=
    funext fun a => Fin.ext (by match a with | ⟨0, _⟩ => rfl)
  rw [e1, hL b]
  show FloatOps.uitofp (F := Ideal) .f32 (BitVec.ofBool (BitVec.ofNat 32 (L b).val == BitVec.ofNat 32 c.val)) = _
  by_cases h : c = L b
  · rw [if_pos h, (beq_iff_eq).2 ((word_eq_iff (L b) c).2 h)]; exact uitofp_one
  · rw [if_neg h, (beq_eq_false_iff_ne).2 (fun e => h ((word_eq_iff (L b) c).1 e))]; exact uitofp_zero

def logit (x : FVec Ideal S512x512 .f32) (w : FVec Ideal S100000x512 .f32) (L : Fin 512 → Fin 100000)
    (b : Fin 512) (c : Fin 100000) : EReal :=
  ((if c = L b then (1 : EReal) else 0) * Cert.Spec.phiRef (Cert.Spec.cosS x w b c)
    + (Cert.Spec.one - (if c = L b then (1 : EReal) else 0)) * Cert.Spec.cosS x w b c) * Cert.Spec.s64

theorem v40_at (x : FVec Ideal S512x512 .f32) (w : FVec Ideal S100000x512 .f32) (lab : IVec S512 32)
    (L : Fin 512 → Fin 100000) (hL : ∀ b, lab (ix1 b) = BitVec.ofNat 32 (L b).val) (b : Fin 512) (c : Fin 100000) :
    val_main_v40 (F := Ideal) x w lab (ix2 b c) = logit x w L b c := by
  rw [val_main_v40_apply, val_main_v38_apply, val_main_v34_apply, val_main_v37_apply, val_main_v36_apply,
    val_main_v35_apply, val_main_cst_10_apply, val_main_v39_apply, val_main_cst_11_apply,
    v33_at lab L hL, v32_at, v18_at]
  rfl

def rowM (x : FVec Ideal S512x512 .f32) (w : FVec Ideal S100000x512 .f32) (L : Fin 512 → Fin 100000) (b : Fin 512) : EReal :=
  max ⊥ ((Finset.univ : Finset (Fin 100000)).fold max ⊥ (fun j => logit x w L b j))

theorem red_cols : S512x100000.Reduces [1] S512 := by decide

theorem lift_cols (b : Fin 512) (k : Fin 100000) : red_cols.lift (ix1 b) k = ix2 b k :=
  funext fun a => Fin.ext (by match a with | ⟨0, _⟩ => rfl | ⟨1, _⟩ => rfl)

theorem rowmax_at (x : FVec Ideal S512x512 .f32) (w : FVec Ideal S100000x512 .f32) (lab : IVec S512 32)
    (L : Fin 512 → Fin 100000) (hL : ∀ b, lab (ix1 b) = BitVec.ofNat 32 (L b).val) (b : Fin 512) :
    val_main_call3_v0 (F := Ideal) x w lab (ix1 b)
      = (Finset.univ : Finset (Fin 100000)).fold max ⊥ (fun j => logit x w L b j) := by
  unfold val_main_call3_v0
  rw [Host.reduce_eq_fold_single FloatOps.maximumf _ _ reducesTo_S512x100000_S512_d1 red_cols h_S_]
  have e : (val_main_v40 (F := Ideal) x w lab ∘ red_cols.lift (ix1 b)) = fun j => logit x w L b j := by
    funext j
    exact (congrArg (val_main_v40 (F := Ideal) x w lab) (lift_cols b j)).trans (v40_at x w lab L hL b j)
  rw [e, val_main_call3_cst_apply]
  show Finset.fold max (Ideal.ofBits .f32 0xFF800000#32) _ _ = _
  rw [show Ideal.ofBits .f32 0xFF800000#32 = (⊥ : EReal) from Cert.Consts.lit_neg_inf]
  rfl

theorem shift_at (x : FVec Ideal S512x512 .f32) (w : FVec Ideal S100000x512 .f32) (lab : IVec S512 32)
    (L : Fin 512 → Fin 100000) (hL : ∀ b, lab (ix1 b) = BitVec.ofNat 32 (L b).val) (b : Fin 512) :
    val_main_call3_v2 (F := Ideal) x w lab (ix1 b) = rowM x w L b := by
  rw [val_main_call3_v2_apply, val_main_call3_v1_apply, val_main_call3_cst_0_apply, rowmax_at x w lab L hL]
  show max (Ideal.ofBits .f32 0xFF800000#32) _ = _
  rw [show Ideal.ofBits .f32 0xFF800000#32 = (⊥ : EReal) from Cert.Consts.lit_neg_inf]
  rfl

theorem centred_at (x : FVec Ideal S512x512 .f32) (w : FVec Ideal S100000x512 .f32) (lab : IVec S512 32)
    (L : Fin 512 → Fin 100000) (hL : ∀ b, lab (ix1 b) = BitVec.ofNat 32 (L b).val) (b : Fin 512) (c : Fin 100000) :
    val_main_call3_v5 (F := Ideal) x w lab (ix2 b c) = logit x w L b c - rowM x w L b := by
  rw [val_main_call3_v5_apply, val_main_call3_v4_apply, val_main_call3_v3_apply, v40_at x w lab L hL]
  have e : idx_main_call3_v3 (idx_main_call3_v4 (ix2 b c)) = ix1 b :=
    funext fun a => Fin.ext (by match a with | ⟨0, _⟩ => rfl)
  rw [e, shift_at x w lab L hL]
  rfl

theorem v41_at (x : FVec Ideal S512x512 .f32) (w : FVec Ideal S100000x512 .f32) (lab : IVec S512 32)
    (L : Fin 512 → Fin 100000) (hL : ∀ b, lab (ix1 b) = BitVec.ofNat 32 (L b).val) (b : Fin 512) (c : Fin 100000) :
    val_main_v41 (F := Ideal) x w lab (ix2 b c)
      = (logit x w L b c - rowM x w L b)
        - Ideal.log (0 + ∑ j : Fin 100000, Ideal.exp (logit x w L b j - rowM x w L b)) := by
  rw [val_main_v41_apply, val_main_call3_v10_apply, val_main_call3_v9_apply, val_main_call3_v8_apply,
    val_main_call3_v7_apply, val_main_call3_cst_1_apply, centred_at x w lab L hL]
  have e2 : ∀ k : Fin 100000, idx_main_call3_v7 (idx_main_call3_v8 (idx_main_call3_v10 (ix2 b c))) k = ix2 b k :=
    fun k => funext fun a => Fin.ext (by match a with | ⟨0, _⟩ => rfl | ⟨1, _⟩ => rfl)
  simp only [e2, val_main_call3_v6_apply, centred_at x w lab L hL, Ideal.subf_def, Ideal.hostUnary_exp_def,
    Ideal.hostUnary_log_def, Ideal.ofBits_def]
  rw [show Ideal.ofBits .f32 0x00000000#32 = (0 : EReal) from Cert.Consts.lit_zero]

theorem label_int (n : Nat) (h : n < 100000) : (BitVec.ofNat 32 n).toInt = (n : Int) := by
  rw [BitVec.toInt_ofNat']
  exact Int.bmod_eq_of_le (by omega) (by omega)

theorem start_word (lab : IVec S512 32) (L : Fin 512 → Fin 100000)
    (hL : ∀ b, lab (ix1 b) = BitVec.ofNat 32 (L b).val) (b : Fin 512) :
    val_main_call4_v5 (F := Ideal) lab (ix3 b 0 0) = BitVec.ofNat 32 (L b).val := by
  rw [val_main_call4_v5_apply, val_main_call4_v4_apply, val_main_call4_v1_apply, val_main_v42_apply,
    val_main_call4_v0_apply, val_main_call4_c_apply]
  have e : idx_main_v42 (idx_main_call4_v5 (ix3 b 0 0)) = ix1 b :=
    funext fun a => Fin.ext (by
      match a with
      | ⟨0, _⟩ => show ((b.val * 1 + 0) * 1 + 0) / 1 = b.val; omega)
  rw [e, hL b]
  have hf : IntOp.cmpi .slt (BitVec.ofNat 32 (L b).val) 0#32 = 0#1 :=
    eq_zero_of_ne_one (Affine.slt_fails (Affine.ofNat (L b).val ⟨rfl, by have := (L b).isLt; omega⟩)
      (Affine.ofNat 0 ⟨rfl, by norm_num⟩) (by omega))
  rw [hf]
  exact select_zero _ _

theorem fold_fin1 {α : Type} (op : α → α → α) [Std.Commutative op] [Std.Associative op] (b : α) (f : Fin 1 → α) :
    (Finset.univ : Finset (Fin 1)).fold op b f = op (f 0) b := by
  rw [Finset.univ_unique, Finset.fold_singleton]
  rfl

theorem red_unit : S512x1x1.Reduces [2] S512x1 := by decide

theorem lift_unit (b : Fin 512) (k : Fin 1) : red_unit.lift (ix2 b 0) k = ix3 b 0 0 :=
  funext fun a => Fin.ext (by
    match a with
    | ⟨0, _⟩ => rfl
    | ⟨1, _⟩ => rfl
    | ⟨2, _⟩ => show k.val = 0; omega)

theorem mask_at (lab : IVec S512 32) (L : Fin 512 → Fin 100000)
    (hL : ∀ b, lab (ix1 b) = BitVec.ofNat 32 (L b).val) (b : Fin 512) :
    val_main_call4_v12 (F := Ideal) lab (ix2 b 0) = 1#1 := by
  unfold val_main_call4_v12
  rw [Host.reduce_eq_fold_single IntOp.andi _ _ reducesTo_S512x1x1_S512x1_d2 red_unit h_S_]
  show (Finset.univ : Finset (Fin 1)).fold IntOp.andi (val_main_call4_c_3 (F := Ideal) (Shape.Idx.first h_S_))
    (val_main_call4_v11 (F := Ideal) lab ∘ red_unit.lift (ix2 b 0)) = 1#1
  refine (fold_fin1 IntOp.andi _ _).trans ?_
  show IntOp.andi (val_main_call4_v11 (F := Ideal) lab (red_unit.lift (ix2 b 0) (0 : Fin 1))) 1#1 = 1#1
  rw [lift_unit, val_main_call4_v11_apply, val_main_call4_v7_apply, val_main_call4_v10_apply,
    start_word lab L hL b, val_main_call4_v6_apply, val_main_call4_c_2_apply, val_main_call4_v9_apply,
    val_main_call4_v8_apply, val_main_call4_c_1_apply]
  have hw := Affine.ofNat (L b).val (e := ((L b).val : Int)) ⟨rfl, by have := (L b).isLt; omega⟩
  have h1 : IntOp.cmpi .sge (BitVec.ofNat 32 (L b).val) 0#32 = 1#1 :=
    Affine.sge_holds hw (Affine.ofNat 0 ⟨rfl, by norm_num⟩) (by omega)
  have h2 : IntOp.cmpi .sle (BitVec.ofNat 32 (L b).val) 99999#32 = 1#1 :=
    Affine.sle_holds hw (Affine.ofNat 99999 ⟨rfl, by norm_num⟩) (by have := (L b).isLt; omega)
  rw [h1, h2]
  rfl

theorem gather_at {α : Type} (y : S512x100000.Idx → α) (idx : IVec S512x1x1 32) (b : Fin 512) :
    Host.gather gather_S512x100000_S512x1x1_S512x1_n_1_0_0_1_2_11 y idx (ix2 b 0)
      = y (ix2 b ⟨min (idx (ix3 b 0 0)).toInt.toNat (100000 - 1), by omega⟩) := by
  unfold Host.gather
  congr 1
  funext a
  refine Fin.ext ?_
  match a with
  | ⟨0, _⟩ =>
    show gather_S512x100000_S512x1x1_S512x1_n_1_0_0_1_2_11.start (ix2 b 0) idx 0
      + gather_S512x100000_S512x1x1_S512x1_n_1_0_0_1_2_11.batchCoord (ix2 b 0) 0
      + gather_S512x100000_S512x1x1_S512x1_n_1_0_0_1_2_11.offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S512x100000.rank) ∈ gather_S512x100000_S512x1x1_S512x1_n_1_0_0_1_2_11.operandBatchingDims
      from List.mem_singleton.mpr rfl)]
    rfl
  | ⟨1, _⟩ =>
    show gather_S512x100000_S512x1x1_S512x1_n_1_0_0_1_2_11.start (ix2 b 0) idx 1
      + gather_S512x100000_S512x1x1_S512x1_n_1_0_0_1_2_11.batchCoord (ix2 b 0) 1
      + gather_S512x100000_S512x1x1_S512x1_n_1_0_0_1_2_11.offCoord (ix2 b 0) 1
      = min (idx (ix3 b 0 0)).toInt.toNat (100000 - 1)
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S512x100000.rank) ∈ gather_S512x100000_S512x1x1_S512x1_n_1_0_0_1_2_11.startIndexMap
      from List.mem_singleton.mpr rfl)]
    have hsi : gather_S512x100000_S512x1x1_S512x1_n_1_0_0_1_2_11.siIdx (ix2 b 0)
        ⟨List.idxOf (1 : Fin S512x100000.rank) gather_S512x100000_S512x1x1_S512x1_n_1_0_0_1_2_11.startIndexMap,
          List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl

theorem v43_at (x : FVec Ideal S512x512 .f32) (w : FVec Ideal S100000x512 .f32) (lab : IVec S512 32)
    (L : Fin 512 → Fin 100000) (hL : ∀ b, lab (ix1 b) = BitVec.ofNat 32 (L b).val) (b : Fin 512) :
    val_main_v43 (F := Ideal) x w lab (ix2 b 0) = val_main_v41 (F := Ideal) x w lab (ix2 b (L b)) := by
  rw [val_main_v43_apply, mask_at lab L hL b, select_one]
  unfold val_main_call4_v13
  rw [gather_at]
  refine congrArg _ (congrArg (ix2 b) (Fin.ext ?_))
  show min (val_main_call4_v5 (F := Ideal) lab (ix3 b 0 0)).toInt.toNat (100000 - 1) = (L b).val
  rw [start_word lab L hL b, label_int _ (L b).isLt, Int.toNat_natCast]
  have := (L b).isLt
  omega

theorem row_at (x : FVec Ideal S512x512 .f32) (w : FVec Ideal S100000x512 .f32) (lab : IVec S512 32)
    (L : Fin 512 → Fin 100000) (hL : ∀ b, lab (ix1 b) = BitVec.ofNat 32 (L b).val) (b : Fin 512) :
    val_main_v45 (F := Ideal) x w lab (ix1 b) = Cert.Spec.rowRef (Cert.Spec.cosS x w b) (L b) := by
  rw [val_main_v45_apply, val_main_v44_apply]
  have e : idx_main_v44 (ix1 b) = ix2 b 0 :=
    funext fun a => Fin.ext (by
      match a with
      | ⟨0, _⟩ => show b.val / 1 = b.val; omega
      | ⟨1, _⟩ => rfl)
  rw [e, v43_at x w lab L hL, v41_at x w lab L hL]
  rfl

theorem ref_value (x : FVec Ideal S512x512 .f32) (w : FVec Ideal S100000x512 .f32) (lab : IVec S512 32)
    (L : Fin 512 → Fin 100000) (hL : ∀ b, lab (ix1 b) = BitVec.ofNat 32 (L b).val) :
    val_main_v47 (F := Ideal) x w lab
      = fun _ => Cert.Spec.meanRows (fun b => Cert.Spec.rowRef (Cert.Spec.cosS x w b) (L b)) := by
  funext i
  rw [val_main_v47_apply, val_main_v46_apply, val_main_cst_13_apply, val_main_cst_12_apply,
    ← Equiv.sum_comp (idxEquiv1 (n := 512)).symm]
  have e : ∀ b : Fin 512, val_main_v45 (F := Ideal) x w lab ((idxEquiv1 (n := 512)).symm b)
      = Cert.Spec.rowRef (Cert.Spec.cosS x w b) (L b) := fun b => row_at x w lab L hL b
  simp only [e, Ideal.hostDivf_def, Ideal.ofBits_def]
  rw [show Ideal.ofBits .f32 0x00000000#32 = (0 : EReal) from Cert.Consts.lit_zero]
  rfl

end Cert.ReferenceIdeal.RefValue

end
-- ==== Proof.RowMath.lean ====
import proofs.«402655_j76381698392241_2_alg».proof.Proof.Spec
import Mathlib.Analysis.SpecialFunctions.Log.Basic
import Mathlib.Analysis.SpecialFunctions.Sqrt
import Mathlib.Data.Finset.Fold
import Mathlib.Algebra.BigOperators.Fin
import Mathlib.Logic.Equiv.Fin.Basic

noncomputable section

open scoped BigOperators

namespace Cert.Spec

open Idealize.ShloMosaic

namespace RowMath

theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

theorem coe_max (a b : ℝ) : ((max a b : ℝ) : EReal) = max (a : EReal) (b : EReal) :=
  EReal.coe_strictMono.monotone.map_max

theorem fold_max_real {ι : Type*} [Fintype ι] [Nonempty ι] (g : ι → ℝ) :
    ∃ t : ℝ, (Finset.univ : Finset ι).fold max ⊥ (fun j => ((g j : ℝ) : EReal)) = (t : EReal) := by
  have h1 : (Finset.univ : Finset ι).fold max ⊥ (fun j => ((g j : ℝ) : EReal)) < ⊤ := by
    rw [Finset.fold_max_lt]
    exact ⟨bot_lt_top, fun x _ => EReal.coe_lt_top _⟩
  have h2 : ⊥ < (Finset.univ : Finset ι).fold max ⊥ (fun j => ((g j : ℝ) : EReal)) := by
    rw [Finset.lt_fold_max]
    exact Or.inr ⟨Classical.arbitrary ι, Finset.mem_univ _, EReal.bot_lt_coe _⟩
  exact ⟨_, (EReal.coe_toReal h1.ne h2.ne').symm⟩

theorem lit_real (b : BitVec 32) (h : (b.extractLsb' 23 8).toNat ≠ 2 ^ 8 - 1) :
    ∃ r : ℝ, lit b = (r : EReal) := by
  show ∃ r : ℝ, Ideal.ieee 8 23 b = (r : EReal)
  unfold Ideal.ieee
  simp only [if_neg h]
  split_ifs <;> exact ⟨_, rfl⟩

theorem s64_real : ∃ r : ℝ, s64 = (r : EReal) := lit_real _ (by decide)
theorem cosm_real : ∃ r : ℝ, cosm = (r : EReal) := lit_real _ (by decide)
theorem sinm_real : ∃ r : ℝ, sinm = (r : EReal) := lit_real _ (by decide)
theorem thr_real : ∃ r : ℝ, thr = (r : EReal) := lit_real _ (by decide)
theorem mmc_real : ∃ r : ℝ, mmc = (r : EReal) := lit_real _ (by decide)
theorem negBig_real : ∃ r : ℝ, negBig = (r : EReal) := lit_real _ (by decide)

theorem one_eq : one = 1 := by
  show Ideal.ofBits .f32 0x3F800000#32 = 1
  simp [Ideal.ofBits, Ideal.ieee, -EReal.coe_mul]; norm_num

theorem lo_real : ∃ r : ℝ, lo = (r : EReal) ∧ -1 < r ∧ r < 0 := by
  refine ⟨-(16777214 / 16777216), ?_, by norm_num, by norm_num⟩
  show Ideal.ofBits .f32 0xBF7FFFFE#32 = _
  simp [Ideal.ofBits, Ideal.ieee, -EReal.coe_mul]; norm_num

theorem hi_real : ∃ r : ℝ, hi = (r : EReal) ∧ 0 < r ∧ r < 1 := by
  refine ⟨16777214 / 16777216, ?_, by norm_num, by norm_num⟩
  show Ideal.ofBits .f32 0x3F7FFFFE#32 = _
  simp [Ideal.ofBits, Ideal.ieee, -EReal.coe_mul]; norm_num

theorem exp_rebase {ι : Type*} (s : Finset ι) (y : ι → ℝ) (m m' : ℝ) :
    Real.exp (m - m') * ∑ i ∈ s, Real.exp (y i - m) = ∑ i ∈ s, Real.exp (y i - m') := by
  rw [Finset.mul_sum]
  refine Finset.sum_congr rfl fun i _ => ?_
  rw [← Real.exp_add]; congr 1; ring

theorem exp_rebase2 (n : ℕ) (y : ℕ → Fin 2000 → ℝ) (m m' : ℝ) :
    Real.exp (m - m') * ∑ k ∈ Finset.range n, ∑ i : Fin 2000, Real.exp (y k i - m)
      = ∑ k ∈ Finset.range n, ∑ i : Fin 2000, Real.exp (y k i - m') := by
  rw [Finset.mul_sum]
  exact Finset.sum_congr rfl fun k _ => exp_rebase _ _ _ _

theorem sum_tiles (f : Fin 100000 → ℝ) :
    ∑ j : Fin 100000, f j = ∑ T : Fin 50, ∑ i : Fin 2000, f (col T i) := by
  calc ∑ j : Fin 100000, f j
      = ∑ p : Fin 50 × Fin 2000, f ((finProdFinEquiv : Fin 50 × Fin 2000 ≃ Fin 100000) p) :=
        (Equiv.sum_comp (finProdFinEquiv : Fin 50 × Fin 2000 ≃ Fin 100000) f).symm
    _ = ∑ T : Fin 50, ∑ i : Fin 2000, f ((finProdFinEquiv : Fin 50 × Fin 2000 ≃ Fin 100000) (T, i)) :=
        Fintype.sum_prod_type _
    _ = _ := by
        refine Finset.sum_congr rfl fun T _ => Finset.sum_congr rfl fun i _ => ?_
        congr 1
        apply Fin.ext
        show i.val + 2000 * T.val = 2000 * T.val + i.val
        omega

def tileFn (F : Fin 50 → ℝ) (n : ℕ) : ℝ := F ⟨n % 50, Nat.mod_lt _ (by norm_num)⟩

theorem tileFn_tileOf (F : Fin 50 → ℝ) (h : Fin 2) (k : ℕ) : F (tileOf h k) = tileFn F (25 * h.val + k) := rfl

theorem sum_halves (F : Fin 50 → ℝ) :
    ∑ T : Fin 50, F T
      = ∑ k ∈ Finset.range 25, F (tileOf 0 k) + ∑ k ∈ Finset.range 25, F (tileOf 1 k) := by
  have h0 : ∑ T : Fin 50, F T = ∑ n ∈ Finset.range 50, tileFn F n := by
    rw [Finset.sum_range]
    refine Finset.sum_congr rfl fun T _ => ?_
    unfold tileFn
    congr 1
    apply Fin.ext
    exact (Nat.mod_eq_of_lt T.isLt).symm
  rw [h0]
  refine (Finset.sum_range_add (tileFn F) 25 25).trans ?_
  simp only [tileFn_tileOf]
  congr 1

theorem halves_exp (y : Fin 100000 → ℝ) (m0 m1 mm : ℝ) :
    (∑ k ∈ Finset.range 25, ∑ i : Fin 2000, Real.exp (y (col (tileOf 0 k) i) - m0)) * Real.exp (m0 - mm)
      + (∑ k ∈ Finset.range 25, ∑ i : Fin 2000, Real.exp (y (col (tileOf 1 k) i) - m1)) * Real.exp (m1 - mm)
      = ∑ j : Fin 100000, Real.exp (y j - mm) := by
  rw [mul_comm _ (Real.exp (m0 - mm)), mul_comm _ (Real.exp (m1 - mm)),
    exp_rebase2 25 (fun k i => y (col (tileOf 0 k) i)), exp_rebase2 25 (fun k i => y (col (tileOf 1 k) i)),
    sum_tiles, sum_halves (fun T => ∑ i : Fin 2000, Real.exp (y (col T i) - mm))]

theorem halves_label (r : Fin 100000 → ℝ) (l : Fin 100000) :
    (∑ k ∈ Finset.range 25, ∑ i : Fin 2000, (if col (tileOf 0 k) i = l then r (col (tileOf 0 k) i) else 0))
      + (∑ k ∈ Finset.range 25, ∑ i : Fin 2000, (if col (tileOf 1 k) i = l then r (col (tileOf 1 k) i) else 0))
      = r l := by
  rw [← sum_halves (fun T => ∑ i : Fin 2000, (if col T i = l then r (col T i) else 0)),
    ← sum_tiles (fun j => if j = l then r j else 0), Finset.sum_ite_eq' Finset.univ l r, if_pos (Finset.mem_univ l)]

theorem patch_sum (y : Fin 100000 → ℝ) (l : Fin 100000) (q mm : ℝ) :
    (∑ j : Fin 100000, Real.exp (y j - mm)) - Real.exp (y l - mm) + Real.exp (q - mm)
      = ∑ j : Fin 100000, Real.exp ((if j = l then q else y j) - mm) := by
  have e1 := Finset.add_sum_erase Finset.univ (fun j => Real.exp (y j - mm)) (Finset.mem_univ l)
  have e2 := Finset.add_sum_erase Finset.univ (fun j => Real.exp ((if j = l then q else y j) - mm)) (Finset.mem_univ l)
  have e3 : ∑ j ∈ Finset.univ.erase l, Real.exp ((if j = l then q else y j) - mm)
      = ∑ j ∈ Finset.univ.erase l, Real.exp (y j - mm) :=
    Finset.sum_congr rfl fun j hj => by rw [if_neg (Finset.ne_of_mem_erase hj)]
  beta_reduce at e1 e2
  rw [if_pos rfl] at e2
  linarith

theorem sum_exp_pos (y : Fin 100000 → ℝ) : 0 < ∑ j : Fin 100000, Real.exp (y j) :=
  Finset.sum_pos (fun j _ => Real.exp_pos _) ⟨0, Finset.mem_univ _⟩

theorem lse_shift (y : Fin 100000 → ℝ) (a : ℝ) :
    Real.log (∑ j : Fin 100000, Real.exp (y j - a)) = Real.log (∑ j : Fin 100000, Real.exp (y j)) - a := by
  have h : ∑ j : Fin 100000, Real.exp (y j - a) = (∑ j : Fin 100000, Real.exp (y j)) * Real.exp (-a) := by
    rw [Finset.sum_mul]
    refine Finset.sum_congr rfl fun j _ => ?_
    rw [← Real.exp_add]; congr 1
  rw [h, Real.log_mul (sum_exp_pos y).ne' (Real.exp_pos _).ne', Real.log_exp]; ring

theorem clip_real (c : EReal) (hc : lo ≤ c ∧ c ≤ hi) : ∃ r : ℝ, c = (r : EReal) ∧ -1 < r ∧ r < 1 := by
  obtain ⟨lr, hlr, hlo, _⟩ := lo_real
  obtain ⟨hr, hhr, _, hhi⟩ := hi_real
  rw [hlr, hhr] at hc
  have h1 : c ≠ ⊥ := (lt_of_lt_of_le (EReal.bot_lt_coe lr) hc.1).ne'
  have h2 : c ≠ ⊤ := (lt_of_le_of_lt hc.2 (EReal.coe_lt_top hr)).ne
  lift c to ℝ using ⟨h2, h1⟩
  refine ⟨c, rfl, ?_, ?_⟩
  · have := EReal.coe_le_coe_iff.1 hc.1; linarith
  · have := EReal.coe_le_coe_iff.1 hc.2; linarith

theorem phi_real (c : EReal) (hc : lo ≤ c ∧ c ≤ hi) :
    ∃ p : ℝ, phiRef c = (p : EReal) ∧ phiKer c = (p : EReal) := by
  obtain ⟨cm, hcm⟩ := cosm_real
  obtain ⟨sm, hsm⟩ := sinm_real
  obtain ⟨th, hth⟩ := thr_real
  obtain ⟨mc, hmc⟩ := mmc_real
  obtain ⟨r, rfl, h1, h2⟩ := clip_real c hc
  have hrad : 0 ≤ 1 - r * r := by nlinarith
  have hsq : one - (r : EReal) * (r : EReal) = ((1 - r * r : ℝ) : EReal) := by
    rw [one_eq, ← EReal.coe_mul, ← EReal.coe_one, ← EReal.coe_sub]
  have hmax : max ((1 - r * r : ℝ) : EReal) 0 = ((1 - r * r : ℝ) : EReal) :=
    max_eq_left (by exact_mod_cast hrad)
  unfold phiRef phiKer
  rw [hsq, hmax, hth, hcm, hsm, hmc, Ideal.sqrt_coe, if_neg (not_lt.2 hrad)]
  split_ifs
  · exact ⟨r * cm - Real.sqrt (1 - r * r) * sm, by simp only [EReal.coe_sub, EReal.coe_mul],
      by simp only [EReal.coe_sub, EReal.coe_mul]⟩
  · exact ⟨r - mc, by simp only [EReal.coe_sub], by simp only [EReal.coe_sub]⟩

theorem stepK_real (c : Fin 100000 → EReal) (r : Fin 100000 → ℝ) (hc : ∀ j, c j = (r j : EReal))
    (S : ℝ) (hS : s64 = (S : EReal)) (l : Fin 100000) (T : Fin 50) (m L t : ℝ) :
    ∃ m' : ℝ, stepK c l T ((m : EReal), (L : EReal), (t : EReal)) =
      ((m' : EReal),
        ((Real.exp (m - m') * L + ∑ i : Fin 2000, Real.exp (r (col T i) * S - m') : ℝ) : EReal),
        ((t + ∑ i : Fin 2000, (if col T i = l then r (col T i) else 0) : ℝ) : EReal)) := by
  obtain ⟨tr, htr⟩ := fold_max_real (fun i : Fin 2000 => r (col T i) * S)
  have htr' : (Finset.univ : Finset (Fin 2000)).fold max ⊥ (fun j => c (col T j) * s64) = (tr : EReal) := by
    rw [← htr]; congr 1; funext j; rw [hc, hS, EReal.coe_mul]
  have hite : ∀ j : Fin 2000, (if col T j = l then c (col T j) else 0)
      = (((if col T j = l then r (col T j) else 0 : ℝ)) : EReal) := by
    intro j; split_ifs
    · exact hc _
    · exact EReal.coe_zero.symm
  have hexp : ∀ j : Fin 2000, Ideal.exp (c (col T j) * s64 - ((max m tr : ℝ) : EReal))
      = ((Real.exp (r (col T j) * S - max m tr) : ℝ) : EReal) := by
    intro j; rw [hc, hS, ← EReal.coe_mul, ← EReal.coe_sub, Ideal.exp_coe]
  refine ⟨max m tr, ?_⟩
  unfold stepK
  simp only [htr', ← coe_max, hite, hexp, coe_sum, ← EReal.coe_sub, Ideal.exp_coe, ← EReal.coe_mul, ← EReal.coe_add]

def halfE (r : Fin 100000 → ℝ) (S : ℝ) (h : Fin 2) (n : ℕ) (m : ℝ) : ℝ :=
  ∑ k ∈ Finset.range n, ∑ i : Fin 2000, Real.exp (r (col (tileOf h k) i) * S - m)
def halfT (r : Fin 100000 → ℝ) (l : Fin 100000) (h : Fin 2) (n : ℕ) : ℝ :=
  ∑ k ∈ Finset.range n, ∑ i : Fin 2000, (if col (tileOf h k) i = l then r (col (tileOf h k) i) else 0)

theorem stK_real (c : Fin 100000 → EReal) (r : Fin 100000 → ℝ) (hc : ∀ j, c j = (r j : EReal))
    (S : ℝ) (hS : s64 = (S : EReal)) (l : Fin 100000) (h : Fin 2) (k : ℕ) :
    ∃ m : ℝ, stK c l h k = ((m : EReal), (halfE r S h (k + 1) m : EReal), (halfT r l h (k + 1) : EReal)) := by
  induction k with
  | zero =>
    obtain ⟨nb, hnb⟩ := negBig_real
    obtain ⟨m', hm'⟩ := stepK_real c r hc S hS l (tileOf h 0) nb 0 0
    refine ⟨m', ?_⟩
    show stepK c l (tileOf h 0) (negBig, 0, 0) = _
    rw [hnb, ← EReal.coe_zero, hm']
    simp [halfE, halfT]
  | succ k ih =>
    obtain ⟨m, hm⟩ := ih
    obtain ⟨m', hm'⟩ := stepK_real c r hc S hS l (tileOf h (k + 1)) m (halfE r S h (k + 1) m) (halfT r l h (k + 1))
    refine ⟨m', ?_⟩
    show stepK c l (tileOf h (k + 1)) (stK c l h k) = _
    rw [hm, hm']
    have e : Real.exp (m - m') * halfE r S h (k + 1) m = halfE r S h (k + 1) m' :=
      exp_rebase2 (k + 1) (fun k i => r (col (tileOf h k) i) * S) m m'
    rw [e]
    simp only [halfE, halfT, Finset.sum_range_succ _ (k + 1)]

def logit (r : Fin 100000 → ℝ) (l : Fin 100000) (p S : ℝ) (j : Fin 100000) : ℝ :=
  if j = l then p * S else r j * S

theorem tailRow_real (S p m0 m1 A0 A1 t0 t1 : ℝ) (hS : s64 = (S : EReal))
    (hp : phiKer ((t0 + t1 : ℝ) : EReal) = (p : EReal))
    (hpos : 0 < A0 * Real.exp (m0 - max m0 m1) + A1 * Real.exp (m1 - max m0 m1)
              - Real.exp (S * (t0 + t1) - max m0 m1) + Real.exp (S * p - max m0 m1)) :
    tailRow (m0 : EReal) (m1 : EReal) (A0 : EReal) (A1 : EReal) (t0 : EReal) (t1 : EReal)
      = ((max m0 m1 + Real.log (A0 * Real.exp (m0 - max m0 m1) + A1 * Real.exp (m1 - max m0 m1)
              - Real.exp (S * (t0 + t1) - max m0 m1) + Real.exp (S * p - max m0 m1)) - S * p : ℝ) : EReal) := by
  unfold tailRow
  simp only [← coe_max, ← EReal.coe_add, hp, hS, ← EReal.coe_sub, ← EReal.coe_mul, Ideal.exp_coe]
  rw [Ideal.log_coe, if_neg (not_le.2 hpos)]
  simp only [← EReal.coe_add, ← EReal.coe_sub]

theorem rowKer_real (c : Fin 100000 → EReal) (r : Fin 100000 → ℝ) (hc : ∀ j, c j = (r j : EReal))
    (S : ℝ) (hS : s64 = (S : EReal)) (l : Fin 100000) (p : ℝ) (hp : phiKer (c l) = (p : EReal)) :
    rowKer c l = ((Real.log (∑ j : Fin 100000, Real.exp (logit r l p S j)) - p * S : ℝ) : EReal) := by
  obtain ⟨m0, h0⟩ := stK_real c r hc S hS l 0 24
  obtain ⟨m1, h1⟩ := stK_real c r hc S hS l 1 24
  have hT : halfT r l 0 25 + halfT r l 1 25 = r l := halves_label r l
  have hp' : phiKer ((halfT r l 0 25 + halfT r l 1 25 : ℝ) : EReal) = (p : EReal) := by rw [hT, ← hc, hp]
  have hE : halfE r S 0 25 m0 * Real.exp (m0 - max m0 m1) + halfE r S 1 25 m1 * Real.exp (m1 - max m0 m1)
      = ∑ j : Fin 100000, Real.exp (r j * S - max m0 m1) :=
    halves_exp (fun j => r j * S) m0 m1 (max m0 m1)
  have harg : halfE r S 0 25 m0 * Real.exp (m0 - max m0 m1) + halfE r S 1 25 m1 * Real.exp (m1 - max m0 m1)
      - Real.exp (S * (halfT r l 0 25 + halfT r l 1 25) - max m0 m1) + Real.exp (S * p - max m0 m1)
      = ∑ j : Fin 100000, Real.exp (logit r l p S j - max m0 m1) := by
    rw [hT, hE, mul_comm S (r l), mul_comm S p]
    exact patch_sum (fun j => r j * S) l (p * S) (max m0 m1)
  unfold rowKer
  rw [h0, h1]
  show tailRow (m0 : EReal) (m1 : EReal) (halfE r S 0 25 m0 : EReal) (halfE r S 1 25 m1 : EReal)
    (halfT r l 0 25 : EReal) (halfT r l 1 25 : EReal) = _
  rw [tailRow_real S p m0 m1 _ _ _ _ hS hp' (by rw [harg]; exact sum_exp_pos _), harg, lse_shift]
  congr 1; ring

theorem rowRef_real (c : Fin 100000 → EReal) (r : Fin 100000 → ℝ) (hc : ∀ j, c j = (r j : EReal))
    (S : ℝ) (hS : s64 = (S : EReal)) (l : Fin 100000) (p : ℝ) (hp : phiRef (c l) = (p : EReal)) :
    rowRef c l = ((Real.log (∑ j : Fin 100000, Real.exp (logit r l p S j)) - p * S : ℝ) : EReal) := by
  have hx : ∀ j : Fin 100000,
      ((if j = l then (1 : EReal) else 0) * phiRef (c j) + (one - (if j = l then (1 : EReal) else 0)) * c j) * s64
        = ((logit r l p S j : ℝ) : EReal) := by
    intro j
    unfold logit
    by_cases h : j = l
    · subst h
      simp only [↓reduceIte]
      rw [hp, hc, hS, one_eq, ← EReal.coe_one, ← EReal.coe_sub, ← EReal.coe_mul, ← EReal.coe_mul, ← EReal.coe_add,
        ← EReal.coe_mul]
      congr 1; ring
    · simp only [if_neg h]
      rw [zero_mul, zero_add, one_eq, sub_zero, one_mul, hc, hS, ← EReal.coe_mul]
  obtain ⟨MR, hMR⟩ := fold_max_real (logit r l p S)
  have hpos : 0 < ∑ j : Fin 100000, Real.exp (logit r l p S j - MR) := sum_exp_pos _
  unfold rowRef
  rw [funext hx]
  dsimp only
  rw [hMR, max_eq_right bot_le]
  simp only [← EReal.coe_sub, Ideal.exp_coe, coe_sum, zero_add]
  rw [Ideal.log_coe, if_neg (not_le.2 hpos), ← EReal.coe_sub, ← EReal.coe_neg, lse_shift]
  have hl : logit r l p S l = p * S := if_pos rfl
  refine congrArg (fun t : ℝ => (t : EReal)) ?_
  rw [hl]; ring

theorem lo_le_hi : lo ≤ hi := by
  obtain ⟨lr, hlr, _, hlo⟩ := lo_real
  obtain ⟨hr, hhr, hhi, _⟩ := hi_real
  rw [hlr, hhr, EReal.coe_le_coe_iff]; linarith

end RowMath

open RowMath

theorem rowKer_eq_rowRef (c : Fin 100000 → EReal) (l : Fin 100000) (hc : ∀ j, lo ≤ c j ∧ c j ≤ hi) :
    rowKer c l = rowRef c l := by
  obtain ⟨S, hS⟩ := s64_real
  have hcr : ∀ j, c j = (((c j).toReal : ℝ) : EReal) := fun j => by
    obtain ⟨r, hr, _, _⟩ := clip_real (c j) (hc j)
    rw [hr, EReal.toReal_coe]
  obtain ⟨p, hpR, hpK⟩ := phi_real (c l) (hc l)
  rw [rowKer_real c _ hcr S hS l p hpK, rowRef_real c _ hcr S hS l p hpR]

theorem cosS_mem (x : SE.Idx → EReal) (w : SW.Idx → EReal) (b : Fin 512) (c : Fin 100000) :
    lo ≤ cosS x w b c ∧ cosS x w b c ≤ hi :=
  ⟨le_min lo_le_hi (le_max_left _ _), min_le_left _ _⟩

end Cert.Spec

end
-- ==== Proof.PreRead.lean ====
import proofs.«402655_j76381698392241_2_alg».proof.Pre_finite_inputs
import proofs.«402655_j76381698392241_2_alg».proof.Proof.Gen.Pre_finite_inputs
import proofs.«402655_j76381698392241_2_alg».proof.Proof.Spec
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx

instance subsingleton_scalar : Subsingleton Cert.Pre_finite_inputs.S_.Idx := ⟨fun a b => funext fun d => d.elim0⟩

theorem real_of_abs_lt_inf (v : EReal)
    (hv : Ideal.cmp .olt (max v (-v)) (Ideal.ofBits .f32 0x7F800000#32) = 1#1) : ∃ r : ℝ, v = (r : EReal) := by
  have top : Ideal.ofBits .f32 0x7F800000#32 = (⊤ : EReal) := by simp [Ideal.ofBits, Ideal.ieee]
  rw [top] at hv
  induction v using EReal.rec with
  | bot => simp [Ideal.cmp] at hv
  | top => simp [Ideal.cmp] at hv
  | coe r => exact ⟨r, rfl⟩

theorem word_of_range (a : BitVec 32)
    (ha : IntOp.andi (IntOp.cmpi .sge a 0#32) (IntOp.cmpi .slt a 100000#32) = 1#1) :
    ∃ L : Fin 100000, a = BitVec.ofNat 32 L.val := by
  obtain ⟨h0, h1⟩ := IntOp.andi_eq_one.1 ha
  rw [IntOp.cmpi_sge] at h0
  rw [IntOp.cmpi_slt] at h1
  have z : (0#32 : BitVec 32).toInt = 0 := by decide
  have c : (100000#32 : BitVec 32).toInt = 100000 := by decide
  rw [z] at h0
  rw [c] at h1
  have hlt := a.isLt
  rw [BitVec.toInt_eq_toNat_cond] at h0 h1
  have hn : a.toNat < 100000 := by
    split_ifs at h0 h1 <;> omega
  refine ⟨⟨a.toNat, hn⟩, ?_⟩
  apply BitVec.eq_of_toNat_eq
  simp only [BitVec.toNat_ofNat]
  omega

theorem split [h : Cert.Pre_finite_inputs.Facts]
    (x : FVec Ideal Cert.Pre_finite_inputs.S512x512 .f32) (w : FVec Ideal Cert.Pre_finite_inputs.S100000x512 .f32)
    (lab : IVec Cert.Pre_finite_inputs.S512 32)
    (hpre : Cert.Pre_finite_inputs.fn (F := Ideal) x w lab = fun _ => 1#1) :
    (∀ i, Ideal.cmp .olt (max (x i) (-(x i))) (Ideal.ofBits .f32 0x7F800000#32) = 1#1)
    ∧ (∀ i, Ideal.cmp .olt (max (w i) (-(w i))) (Ideal.ofBits .f32 0x7F800000#32) = 1#1)
    ∧ (∀ i, IntOp.andi (IntOp.cmpi .sge (lab i) 0#32) (IntOp.cmpi .slt (lab i) 100000#32) = 1#1) := by
  have e := congrFun hpre ValueIdx.ix0
  dsimp only [Cert.Pre_finite_inputs.fn] at e
  obtain ⟨e12, e3⟩ := IntOp.andi_eq_one.1 e
  obtain ⟨e1, e2⟩ := IntOp.andi_eq_one.1 e12
  exact ⟨fun i => Host.reduce_andi_all _ _ _ _ _ e1 i, fun i => Host.reduce_andi_all _ _ _ _ _ e2 i,
    fun i => Host.reduce_andi_all _ _ _ _ _ e3 i⟩

theorem finite_x [h : Cert.Pre_finite_inputs.Facts]
    (x : FVec Ideal Cert.Pre_finite_inputs.S512x512 .f32) (w : FVec Ideal Cert.Pre_finite_inputs.S100000x512 .f32)
    (lab : IVec Cert.Pre_finite_inputs.S512 32)
    (hpre : Cert.Pre_finite_inputs.fn (F := Ideal) x w lab = fun _ => 1#1) : ∀ i, ∃ r : ℝ, x i = (r : EReal) :=
  fun i => real_of_abs_lt_inf (x i) ((split x w lab hpre).1 i)

theorem finite_w [h : Cert.Pre_finite_inputs.Facts]
    (x : FVec Ideal Cert.Pre_finite_inputs.S512x512 .f32) (w : FVec Ideal Cert.Pre_finite_inputs.S100000x512 .f32)
    (lab : IVec Cert.Pre_finite_inputs.S512 32)
    (hpre : Cert.Pre_finite_inputs.fn (F := Ideal) x w lab = fun _ => 1#1) : ∀ i, ∃ r : ℝ, w i = (r : EReal) :=
  fun i => real_of_abs_lt_inf (w i) ((split x w lab hpre).2.1 i)

theorem label_range [h : Cert.Pre_finite_inputs.Facts]
    (x : FVec Ideal Cert.Pre_finite_inputs.S512x512 .f32) (w : FVec Ideal Cert.Pre_finite_inputs.S100000x512 .f32)
    (lab : IVec Cert.Pre_finite_inputs.S512 32)
    (hpre : Cert.Pre_finite_inputs.fn (F := Ideal) x w lab = fun _ => 1#1) :
    ∀ b : Fin 512, ∃ L : Fin 100000, lab (ValueIdx.ix1 b) = BitVec.ofNat 32 L.val :=
  fun b => word_of_range (lab (ValueIdx.ix1 b)) ((split x w lab hpre).2.2 (ValueIdx.ix1 b))

end Cert.PreRead

end
-- ==== Proof.lean ====
/-
  Each kernel program's frame is its one region between twelve host operations and sixty-five, proved once for any float
  instance; the reference is a straight-line host program whose run gives its frame. Value: per batch row both programs
  compute log(sum_j exp(x_j)) - x_label over the margin-patched logits x, the kernel as a running softmax over two halves
  of twenty-five tiles merged afterwards, the reference in one pass; a log-sum-exp does not depend on its shift.
-/
import proofs.«402655_j76381698392241_2_alg».proof.Defs
import proofs.«402655_j76381698392241_2_alg».proof.Proof.Gen.Kernel
import proofs.«402655_j76381698392241_2_alg».proof.Proof.Gen.KernelIdeal
import proofs.«402655_j76381698392241_2_alg».proof.Proof.Gen.ReferenceIdeal
import proofs.«402655_j76381698392241_2_alg».proof.Proof.Gen.Pre_finite_inputs
import proofs.«402655_j76381698392241_2_alg».proof.Proof.BFrame
import proofs.«402655_j76381698392241_2_alg».proof.Proof.KValue
import proofs.«402655_j76381698392241_2_alg».proof.Proof.RefRun
import proofs.«402655_j76381698392241_2_alg».proof.Proof.RefValue
import proofs.«402655_j76381698392241_2_alg».proof.Proof.RowMath
import proofs.«402655_j76381698392241_2_alg».proof.Proof.PreRead
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_r : Cert.frame_ReferenceIdeal := fun m ρ _ =>
  (θ_run Cert.ReferenceIdeal.defs _ _).mono (fun _ h c => (h c).2) (Cert.ReferenceIdeal.RefRun.ref_run (F := Ideal) m ρ)

theorem preserves : Cert.preserves_Kernel_KernelIdeal :=
  IdealRules.named_const.statement Cert.KernelIdeal.κ "eps_norm_sq" .f32 0x179ABE15#32
    ((5316911940649 / 5316911983139663491615228241121378304 : ℝ) : EReal) rfl

theorem algebraic : Cert.algebraic_KernelIdeal_ReferenceIdeal := by
  intro m ρ m' ρ' hpre hagree
  have hlab : ∀ (c : Dev Cert.KernelIdeal.nD) (b : Fin 512), ∃ L : Fin 100000,
      (m ((c.tc : Thread Cert.KernelIdeal.nD Cert.KernelIdeal.τ).loc Cert.KernelIdeal.main_arg2) : Cert.KernelIdeal.S512.Idx → BitVec 32) (ix1 b)
        = BitVec.ofNat 32 L.val := fun c => Cert.PreRead.label_range _ _ _ (hpre c)
  choose L hL using hlab
  have hfin : ∀ (c : Dev Cert.KernelIdeal.nD) i, ∃ r : ℝ,
      (m ((c.tc : Thread Cert.KernelIdeal.nD Cert.KernelIdeal.τ).loc Cert.KernelIdeal.main_arg1) : Cert.KernelIdeal.S100000x512.Idx → EReal) i = (r : EReal) :=
    fun c => Cert.PreRead.finite_w _ _ _ (hpre c)
  refine ⟨fun c => fun _ => Cert.Spec.meanRows (fun b => Cert.Spec.rowRef
      (Cert.Spec.cosS (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) b) (L c b)), ?_, ?_⟩
  · refine (θ_run Cert.KernelIdeal.defs _ _).mono (fun r h c => ⟨(h c).1.trans ?_, (h c).2⟩)
      (Cert.KernelIdeal.Hand.value_run m ρ L hL hfin)
    funext _
    refine congrArg Cert.Spec.meanRows (funext fun b => ?_)
    exact Cert.Spec.rowKer_eq_rowRef _ _ fun j => Cert.Spec.cosS_mem _ _ _ _
  · refine (θ_run Cert.ReferenceIdeal.defs _ _).mono (fun r h c => ⟨(h c).1.trans ?_, (h c).2⟩)
      (Cert.ReferenceIdeal.RefRun.ref_run (F := Ideal) m' ρ')
    rw [(hagree c).1, (hagree c).2.1, (hagree c).2.2]
    exact Cert.ReferenceIdeal.RefValue.ref_value _ _ _ (L c) (hL c)

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
